-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x1024 : Shape := ⟨3, ![4, 512, 1024]⟩
abbrev S4x512 : Shape := ⟨2, ![4, 512]⟩
abbrev S4 : Shape := ⟨1, ![4]⟩
abbrev S32000x1024 : Shape := ⟨2, ![32000, 1024]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S4 : S_.BroadcastsInDim S4 (![] : Fin 0 → Fin S4.rank)
  reducesTo_S4_S_d0 : S4.ReducesTo [0] S_
  bcast_S_S32000x1024 : S_.BroadcastsInDim S32000x1024 (![] : Fin 0 → Fin S32000x1024.rank)
  reducesTo_S32000x1024_S_d0_1 : S32000x1024.ReducesTo [0, 1] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg1 : IVec S4x512 32) (main_arg6 : FVec F S32000x1024 .f32) (main_v13 : IVec S_ 1) (main_v16 : IVec S32000x1024 1) : IVec S_ 1 :=
  let main_c_5 : IVec S_ 1 := constantI S_ 1 1#1
  let main_v17 : IVec S_ 1 := (fun x v => Host.reduce IntOp.andi x v reducesTo_S32000x1024_S_d0_1 h_S_) main_v16 main_c_5
  let main_v18 : IVec S_ 1 := andi main_v13 main_v17
  let main_v19 : FVec F S32000x1024 .f32 := Host.absf main_arg6
  let main_cst_6 : FVec F S_ .f32 := constant S_ .f32 0x7F800000#32
  let main_v20 : FVec F S32000x1024 .f32 := broadcastInDim S32000x1024 ![] bcast_S_S32000x1024 main_cst_6
  let main_v21 : IVec S32000x1024 1 := cmpf .olt main_v19 main_v20
  let main_c_7 : IVec S_ 1 := constantI S_ 1 1#1
  let main_v22 : IVec S_ 1 := (fun x v => Host.reduce IntOp.andi x v reducesTo_S32000x1024_S_d0_1 h_S_) main_v21 main_c_7
  let main_v23 : IVec S_ 1 := andi main_v18 main_v22
  let main_c_8 : IVec S_ 32 := constantI S_ 32 0#32
  let main_v24 : IVec S4x512 32 := broadcastInDim S4x512 ![] bcast_S_S4x512 main_c_8
  let main_v25 : IVec S4x512 1 := cmpi .sge main_arg1 main_v24
  let main_c_9 : IVec S_ 32 := constantI S_ 32 32000#32
  let main_v26 : IVec S4x512 32 := broadcastInDim S4x512 ![] bcast_S_S4x512 main_c_9
  let main_v27 : IVec S4x512 1 := cmpi .slt main_arg1 main_v26
  let main_v28 : IVec S4x512 1 := andi main_v25 main_v27
  let main_c_10 : IVec S_ 1 := constantI S_ 1 1#1
  let main_v29 : IVec S_ 1 := (fun x v => Host.reduce IntOp.andi x v reducesTo_S4x512_S_d0_1 h_S_) main_v28 main_c_10
  let main_v30 : IVec S_ 1 := andi main_v23 main_v29
  main_v30

def fn {F : FTy → Type} [FloatOps F] (main_arg0 : FVec F S4x512x1024 .f32) (main_arg1 : IVec S4x512 32) (main_arg2 : IVec S4x512 32) (main_arg3 : FVec F S4 .f32) (main_arg4 : FVec F S4x512x1024 .f32) (main_arg5 : FVec F S32000x1024 .f32) (main_arg6 : FVec F S32000x1024 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4x512x1024 .f32 := Host.absf main_arg4
  let main_cst_2 : FVec F S_ .f32 := constant S_ .f32 0x7F800000#32
  let main_v10 : FVec F S4x512x1024 .f32 := broadcastInDim S4x512x1024 ![] bcast_S_S4x512x1024 main_cst_2
  let main_v11 : IVec S4x512x1024 1 := cmpf .olt main_v9 main_v10
  let main_c_3 : IVec S_ 1 := constantI S_ 1 1#1
  let main_v12 : IVec S_ 1 := (fun x v => Host.reduce IntOp.andi x v reducesTo_S4x512x1024_S_d0_1_2 h_S_) main_v11 main_c_3
  let main_v13 : IVec S_ 1 := andi main_v8 main_v12
  let main_v14 : FVec F S32000x1024 .f32 := Host.absf main_arg5
  let main_cst_4 : FVec F S_ .f32 := constant S_ .f32 0x7F800000#32
  let main_v15 : FVec F S32000x1024 .f32 := broadcastInDim S32000x1024 ![] bcast_S_S32000x1024 main_cst_4
  let main_v16 : IVec S32000x1024 1 := cmpf .olt main_v14 main_v15
  fn_part1 (F := F) main_arg1 main_arg6 main_v13 main_v16
-- ==== Kernel.lean ====
abbrev S4x512x1024 : Shape := ⟨3, ![4, 512, 1024]⟩
abbrev S4x512 : Shape := ⟨2, ![4, 512]⟩
abbrev S4 : Shape := ⟨1, ![4]⟩
abbrev S32000x1024 : Shape := ⟨2, ![32000, 1024]⟩
abbrev S_ : Shape := ⟨0, ![]⟩
abbrev S2048x1 : Shape := ⟨2, ![2048, 1]⟩
abbrev S2048x1024 : Shape := ⟨2, ![2048, 1024]⟩
abbrev S2048 : Shape := ⟨1, ![2048]⟩
abbrev S1024x1024 : Shape := ⟨2, ![1024, 1024]⟩
abbrev S1280x1024 : Shape := ⟨2, ![1280, 1024]⟩
abbrev S1024x1 : Shape := ⟨2, ![1024, 1]⟩
abbrev S1024 : Shape := ⟨1, ![1024]⟩
abbrev S1024x1280 : Shape := ⟨2, ![1024, 1280]⟩
abbrev S4x1 : Shape := ⟨2, ![4, 1]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S4x512x1024, .f32⟩
  | .hbm, ⟨1, _⟩ => ⟨S4x512, .i32⟩
  | .hbm, ⟨2, _⟩ => ⟨S4x512, .i32⟩
  | .hbm, ⟨3, _⟩ => ⟨S4, .f32⟩
  | .hbm, ⟨4, _⟩ => ⟨S4x512x1024, .f32⟩
  | .hbm, ⟨5, _⟩ => ⟨S32000x1024, .f32⟩
  | .hbm, ⟨6, _⟩ => ⟨S32000x1024, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4x512, .i32⟩
  | .hbm, ⟨11, _⟩ => ⟨S4x512, .i32⟩
  | .hbm, ⟨12, _⟩ => ⟨S_, .i32⟩
  | .hbm, ⟨13, _⟩ => ⟨S4x512, .i32⟩
  | .hbm, ⟨14, _⟩ => ⟨S4x512, .i32⟩
  | .hbm, ⟨15, _⟩ => ⟨S2048x1, .i32⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S2048x1024, .bf16⟩
  | .hbm, ⟨20, _⟩ => ⟨S2048, .f32⟩
  | .hbm, ⟨21, _⟩ => ⟨S4x512, .f32⟩
  | .hbm, ⟨22, _⟩ => ⟨S2048, .f32⟩
  | .hbm, ⟨23, _⟩ => ⟨S4x512, .f32⟩
  | .hbm, ⟨24, _⟩ => ⟨S4x1, .f32⟩
  | .hbm, ⟨25, _⟩ => ⟨S1x1, .f32⟩
  | .hbm, ⟨26, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .f32⟩
  | .local _ .vmem, ⟨3, _⟩ => ⟨S1280x1024, .f32⟩
  | .local _ .vmem, ⟨4, _⟩ => ⟨S1024x1, .i32⟩
  | .local _ .vmem, ⟨5, _⟩ => ⟨S1024x1, .i32⟩
  | .local _ .vmem, ⟨6, _⟩ => ⟨S1024, .f32⟩
  | .local _ .vmem, ⟨7, _⟩ => ⟨S1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1024, .bf16⟩
  | .local _ .vmem, ⟨12, _⟩ => ⟨S1024x1024, .bf16⟩
  | .local _ .vmem, ⟨13, _⟩ => ⟨S1280x1024, .f32⟩
  | .local _ .vmem, ⟨14, _⟩ => ⟨S1280x1024, .f32⟩
  | .local _ .vmem, ⟨15, _⟩ => ⟨S1024x1, .i32⟩
  | .local _ .vmem, ⟨16, _⟩ => ⟨S1024x1, .i32⟩
  | .local _ .vmem, ⟨17, _⟩ => ⟨S1024, .f32⟩
  | .local _ .vmem, ⟨18, _⟩ => ⟨S1024, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S4x512, .f32⟩
  | .local _ .vmem, ⟨23, _⟩ => ⟨S4x512, .f32⟩
  | .local _ .vmem, ⟨24, _⟩ => ⟨S4x1, .f32⟩
  | .local _ .vmem, ⟨25, _⟩ => ⟨S4x512, .i32⟩
  | .local _ .vmem, ⟨26, _⟩ => ⟨S1x1, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x512 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S_S4x512 : S_.BroadcastsInDim S4x512 (![] : Fin 0 → Fin S4x512.rank)
  shapeCasts_S4x512_S2048x1 : S4x512.ShapeCasts S2048x1
  shapeCasts_S4x512x1024_S2048x1024 : S4x512x1024.ShapeCasts S2048x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  iota_S1024x1280_d1_w32 : S1024x1280.Iotas .tc 32 [1]
  broadcasts_S1024x1_S1024x1280 : S1024x1.Broadcasts S1024x1280
  reduces_S1024x1280_S1024 : S1024x1280.Reduces [1] S1024
  shapeCasts_S1024_S1024x1 : S1024.ShapeCasts S1024x1
  shapeCasts_S1024x1_S1024 : S1024x1.ShapeCasts S1024
  inb_S1024_S1024_0 : ∀ a, (![0] : Fin 1 → Nat) a + S1024.size a ≤ S1024.size a
  h_S1024 : 0 < S1024.numel
  shapeCasts_S2048_S4x512 : S2048.ShapeCasts S4x512
  shapeCasts_S4_S4x1 : S4.ShapeCasts S4x1
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x512 : S4x1.Broadcasts S4x512
  reduces_S4x512_S4 : S4x512.Reduces [1] S4
  reduces_S4x1_S1 : S4x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x1024_S1280x1024_S1024x1280_1_1_0_0_n_n_wf : DotDims.WF S1024x1024 S1280x1024 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .f32 = 32 ∨ (Rect.block (s := S32000x1024) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S2048.size a
  hwx0_3 : ∀ i : grid0.Coords, EltTy.bits .f32 = 32 ∨ (Rect.block (s := S2048) S1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x1024.size a
  hwx1_0 : ∀ i : grid1.Coords, EltTy.bits .bf16 = 32 ∨ (Rect.block (s := S2048x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x1024.size a ≤ S32000x1024.size a
  hwx1_1 : ∀ i : grid1.Coords, EltTy.bits .f32 = 32 ∨ (Rect.block (s := S32000x1024) S1280x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .i32 = 32 ∨ (Rect.block (s := S2048x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S2048.size a
  hwx1_3 : ∀ i : grid1.Coords, EltTy.bits .f32 = 32 ∨ (Rect.block (s := S2048) S1024.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4x512.size a ≤ S4x512.size a
  hwx2_0 : ∀ i : grid2.Coords, EltTy.bits .f32 = 32 ∨ (Rect.block (s := S4x512) S4x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x512.size a ≤ S4x512.size a
  hwx2_1 : ∀ i : grid2.Coords, EltTy.bits .f32 = 32 ∨ (Rect.block (s := S4x512) S4x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x1.size a ≤ S4x1.size a
  hwx2_2 : ∀ i : grid2.Coords, EltTy.bits .f32 = 32 ∨ (Rect.block (s := S4x1) S4x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x512.size a ≤ S4x512.size a
  hwx2_3 : ∀ i : grid2.Coords, EltTy.bits .i32 = 32 ∨ (Rect.block (s := S4x512) S4x512.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1280x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v7) S4x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v9) S4x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S4x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x512x1024 : Shape := ⟨3, ![4, 512, 1024]⟩
abbrev S4x512 : Shape := ⟨2, ![4, 512]⟩
abbrev S4 : Shape := ⟨1, ![4]⟩
abbrev S32000x1024 : Shape := ⟨2, ![32000, 1024]⟩
abbrev S4x512x32000 : Shape := ⟨3, ![4, 512, 32000]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩
abbrev S4x1 : Shape := ⟨2, ![4, 1]⟩

abbrev nBuf : Space → Nat
  | .hbm => 123
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512, .i32⟩
  | .hbm, ⟨2, _⟩ => ⟨S4x512, .i32⟩
  | .hbm, ⟨3, _⟩ => ⟨S4, .f32⟩
  | .hbm, ⟨4, _⟩ => ⟨S4x512x1024, .f32⟩
  | .hbm, ⟨5, _⟩ => ⟨S32000x1024, .f32⟩
  | .hbm, ⟨6, _⟩ => ⟨S32000x1024, .f32⟩
  | .hbm, ⟨7, _⟩ => ⟨S4x512x32000, .f32⟩
  | .hbm, ⟨8, _⟩ => ⟨S_, .f32⟩
  | .hbm, ⟨9, _⟩ => ⟨S4x512, .f32⟩
  | .hbm, ⟨10, _⟩ => ⟨S_, .f32⟩
  | .hbm, ⟨11, _⟩ => ⟨S4x512, .f32⟩
  | .hbm, ⟨12, _⟩ => ⟨S4x512, .f32⟩
  | .hbm, ⟨13, _⟩ => ⟨S4x512x1, .f32⟩
  | .hbm, ⟨14, _⟩ => ⟨S4x512x32000, .f32⟩
  | .hbm, ⟨15, _⟩ => ⟨S4x512x32000, .f32⟩
  | .hbm, ⟨16, _⟩ => ⟨S4x512x32000, .f32⟩
  | .hbm, ⟨17, _⟩ => ⟨S_, .f32⟩
  | .hbm, ⟨18, _⟩ => ⟨S4x512, .f32⟩
  | .hbm, ⟨19, _⟩ => ⟨S4x512x1, .f32⟩
  | .hbm, ⟨20, _⟩ => ⟨S4x512x1, .f32⟩
  | .hbm, ⟨21, _⟩ => ⟨S4x512x32000, .f32⟩
  | .hbm, ⟨22, _⟩ => ⟨S4x512x32000, .f32⟩
  | .hbm, ⟨23, _⟩ => ⟨S4x512x1, .i32⟩
  | .hbm, ⟨24, _⟩ => ⟨S_, .i32⟩
  | .hbm, ⟨25, _⟩ => ⟨S4x512x1, .i32⟩
  | .hbm, ⟨26, _⟩ => ⟨S4x512x1, .i1⟩
  | .hbm, ⟨27, _⟩ => ⟨S_, .i32⟩
  | .hbm, ⟨28, _⟩ => ⟨S4x512x1, .i32⟩
  | .hbm, ⟨29, _⟩ => ⟨S4x512x1, .i32⟩
  | .hbm, ⟨30, _⟩ => ⟨S4x512x1, .i32⟩
  | .hbm, ⟨31, _⟩ => ⟨S4x512x1x1, .i32⟩
  | .hbm, ⟨32, _⟩ => ⟨S1, .i32⟩
  | .hbm, ⟨33, _⟩ => ⟨S_, .i32⟩
  | .hbm, ⟨34, _⟩ => ⟨S4x512x1x1, .i32⟩
  | .hbm, ⟨35, _⟩ => ⟨S4x512x1x1, .i1⟩
  | .hbm, ⟨36, _⟩ => ⟨S1x1x1x1, .i32⟩
  | .hbm, ⟨37, _⟩ => ⟨S4x512x1x1, .i32⟩
  | .hbm, ⟨38, _⟩ => ⟨S4x512x1x1, .i1⟩
  | .hbm, ⟨39, _⟩ => ⟨S4x512x1x1, .i1⟩
  | .hbm, ⟨40, _⟩ => ⟨S_, .i1⟩
  | .hbm, ⟨41, _⟩ => ⟨S4x512x1, .i1⟩
  | .hbm, ⟨42, _⟩ => ⟨S4x512x1, .f32⟩
  | .hbm, ⟨43, _⟩ => ⟨S_, .f32⟩
  | .hbm, ⟨44, _⟩ => ⟨S4x512x1, .f32⟩
  | .hbm, ⟨45, _⟩ => ⟨S4x512x1, .f32⟩
  | .hbm, ⟨46, _⟩ => ⟨S4x512, .f32⟩
  | .hbm, ⟨47, _⟩ => ⟨S4x512x32000, .f32⟩
  | .hbm, ⟨48, _⟩ => ⟨S_, .f32⟩
  | .hbm, ⟨49, _⟩ => ⟨S4x512, .f32⟩
  | .hbm, ⟨50, _⟩ => ⟨S_, .f32⟩
  | .hbm, ⟨51, _⟩ => ⟨S4x512, .f32⟩
  | .hbm, ⟨52, _⟩ => ⟨S4x512, .f32⟩
  | .hbm, ⟨53, _⟩ => ⟨S4x512x1, .f32⟩
  | .hbm, ⟨54, _⟩ => ⟨S4x512x32000, .f32⟩
  | .hbm, ⟨55, _⟩ => ⟨S4x512x32000, .f32⟩
  | .hbm, ⟨56, _⟩ => ⟨S4x512x32000, .f32⟩
  | .hbm, ⟨57, _⟩ => ⟨S_, .f32⟩
  | .hbm, ⟨58, _⟩ => ⟨S4x512, .f32⟩
  | .hbm, ⟨59, _⟩ => ⟨S4x512x1, .f32⟩
  | .hbm, ⟨60, _⟩ => ⟨S4x512x1, .f32⟩
  | .hbm, ⟨61, _⟩ => ⟨S4x512x32000, .f32⟩
  | .hbm, ⟨62, _⟩ => ⟨S4x512x32000, .f32⟩
  | .hbm, ⟨63, _⟩ => ⟨S4x512x1, .i32⟩
  | .hbm, ⟨64, _⟩ => ⟨S_, .i32⟩
  | .hbm, ⟨65, _⟩ => ⟨S4x512x1, .i32⟩
  | .hbm, ⟨66, _⟩ => ⟨S4x512x1, .i1⟩
  | .hbm, ⟨67, _⟩ => ⟨S_, .i32⟩
  | .hbm, ⟨68, _⟩ => ⟨S4x512x1, .i32⟩
  | .hbm, ⟨69, _⟩ => ⟨S4x512x1, .i32⟩
  | .hbm, ⟨70, _⟩ => ⟨S4x512x1, .i32⟩
  | .hbm, ⟨71, _⟩ => ⟨S4x512x1x1, .i32⟩
  | .hbm, ⟨72, _⟩ => ⟨S1, .i32⟩
  | .hbm, ⟨73, _⟩ => ⟨S_, .i32⟩
  | .hbm, ⟨74, _⟩ => ⟨S4x512x1x1, .i32⟩
  | .hbm, ⟨75, _⟩ => ⟨S4x512x1x1, .i1⟩
  | .hbm, ⟨76, _⟩ => ⟨S1x1x1x1, .i32⟩
  | .hbm, ⟨77, _⟩ => ⟨S4x512x1x1, .i32⟩
  | .hbm, ⟨78, _⟩ => ⟨S4x512x1x1, .i1⟩
  | .hbm, ⟨79, _⟩ => ⟨S4x512x1x1, .i1⟩
  | .hbm, ⟨80, _⟩ => ⟨S_, .i1⟩
  | .hbm, ⟨81, _⟩ => ⟨S4x512x1, .i1⟩
  | .hbm, ⟨82, _⟩ => ⟨S4x512x1, .f32⟩
  | .hbm, ⟨83, _⟩ => ⟨S_, .f32⟩
  | .hbm, ⟨84, _⟩ => ⟨S4x512x1, .f32⟩
  | .hbm, ⟨85, _⟩ => ⟨S4x512x1, .f32⟩
  | .hbm, ⟨86, _⟩ => ⟨S4x512, .f32⟩
  | .hbm, ⟨87, _⟩ => ⟨S4x512, .f32⟩
  | .hbm, ⟨88, _⟩ => ⟨S4x512, .f32⟩
  | .hbm, ⟨89, _⟩ => ⟨S4x1, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S4x512, .f32⟩
  | .hbm, ⟨94, _⟩ => ⟨S4x512, .f32⟩
  | .hbm, ⟨95, _⟩ => ⟨S_, .f32⟩
  | .hbm, ⟨96, _⟩ => ⟨S4x512, .f32⟩
  | .hbm, ⟨97, _⟩ => ⟨S4x512, .f32⟩
  | .hbm, ⟨98, _⟩ => ⟨S4x512, .f32⟩
  | .hbm, ⟨99, _⟩ => ⟨S4x512, .f32⟩
  | .hbm, ⟨100, _⟩ => ⟨S4x512, .f32⟩
  | .hbm, ⟨101, _⟩ => ⟨S4x512, .f32⟩
  | .hbm, ⟨102, _⟩ => ⟨S4x512, .f32⟩
  | .hbm, ⟨103, _⟩ => ⟨S4x512, .f32⟩
  | .hbm, ⟨104, _⟩ => ⟨S4x512, .f32⟩
  | .hbm, ⟨105, _⟩ => ⟨S4x512, .f32⟩
  | .hbm, ⟨106, _⟩ => ⟨S4x512, .f32⟩
  | .hbm, ⟨107, _⟩ => ⟨S_, .f32⟩
  | .hbm, ⟨108, _⟩ => ⟨S4x512, .f32⟩
  | .hbm, ⟨109, _⟩ => ⟨S4x512, .f32⟩
  | .hbm, ⟨110, _⟩ => ⟨S_, .f32⟩
  | .hbm, ⟨111, _⟩ => ⟨S4x512, .f32⟩
  | .hbm, ⟨112, _⟩ => ⟨S4x512, .f32⟩
  | .hbm, ⟨113, _⟩ => ⟨S4x512, .f32⟩
  | .hbm, ⟨114, _⟩ => ⟨S4x512, .f32⟩
  | .hbm, ⟨115, _⟩ => ⟨S4x512, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_call2_cst : Ref sig .tc := ⟨.hbm, 48, rfl⟩
abbrev main_call2_v0 : Ref sig .tc := ⟨.hbm, 49, rfl⟩
abbrev main_call2_cst_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_cst_1 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_v6 : Ref sig .tc := ⟨.hbm, 62, rfl⟩
abbrev main_v7 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_cst : Ref sig .tc := ⟨.hbm, 90, rfl⟩
abbrev main_cst_0 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_cst_1 : Ref sig .tc := ⟨.hbm, 107, rfl⟩
abbrev main_v23 : Ref sig .tc := ⟨.hbm, 108, rfl⟩
abbrev main_v24 : Ref sig .tc := ⟨.hbm, 109, rfl⟩
abbrev main_cst_2 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_cst_3 : Ref sig .tc := ⟨.hbm, 116, rfl⟩
abbrev main_v30 : Ref sig .tc := ⟨.hbm, 117, rfl⟩
abbrev main_cst_4 : Ref sig .tc := ⟨.hbm, 118, rfl⟩
abbrev main_v31 : Ref sig .tc := ⟨.hbm, 119, rfl⟩
abbrev main_cst_5 : Ref sig .tc := ⟨.hbm, 120, rfl⟩
abbrev main_v32 : Ref sig .tc := ⟨.hbm, 121, rfl⟩
abbrev main_v33 : Ref sig .tc := ⟨.hbm, 122, rfl⟩

abbrev nD : Nat := 1
abbrev τ : Topo := Topo.v7x

variable {F : FTy → Type} [FloatOps F]

class Facts₀ : Prop where
  reducesTo_S4x512x32000_S4x512_d2 : S4x512x32000.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x32000_0_1_2 : S4x512x1.BroadcastsInDim S4x512x32000 (![0, 1, 2] : Fin 3 → Fin S4x512x32000.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  bcast_S4_S4x1_0 : S4.BroadcastsInDim S4x1 (![0] : Fin 1 → Fin S4x1.rank)
  bcast_S4x1_S4x512_0_1 : S4x1.BroadcastsInDim S4x512 (![0, 1] : Fin 2 → Fin S4x512.rank)
  reducesTo_S4x512_S_d0_1 : S4x512.ReducesTo [0, 1] S_
  dot_S4x512x1024_S32000x1024_S4x512x32000_2_1_01_0_n_n_wf : DotDims.WF S4x512x1024 S32000x1024 S4x512x32000 [2] [1] [0, 1] [0] [] []
  gather_S4x512x32000_S4x512x1x1_S4x512x1_n_2_01_01_2_3_111_wf : GatherDims.WF S4x512x32000 S4x512x1x1 S4x512x1 [] [2] [0, 1] [2] [0, 1] 3 ![1, 1, 1]

variable [Facts₀]

def dot_S4x512x1024_S32000x1024_S4x512x32000_2_1_01_0_n_n : DotDims S4x512x1024 S32000x1024 S4x512x32000 where
  lhsContracting := [2]
  rhsContracting := [1]
  lhsNonContracting := [0, 1]
  rhsNonContracting := [0]
  lhsBatch := []
  rhsBatch := []
  wf := dot_S4x512x1024_S32000x1024_S4x512x32000_2_1_01_0_n_n_wf
def gather_S4x512x32000_S4x512x1x1_S4x512x1_n_2_01_01_2_3_111 : GatherDims S4x512x32000 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x32000_S4x512x1x1_S4x512x1_n_2_01_01_2_3_111_wf

class Facts : Prop extends Facts₀ where

variable [Facts]
-- ==== Proof.K.LmStep.lean ====
import proofs.«423802_j62801011802684_3_alg».proof.Proof.Gen.Kernel.Skeleton

set_option maxRecDepth 16384

noncomputable section

namespace Cert.Kernel.Hand

open Cert.Kernel Cert.Kernel.Gen
open Idealize.ShloMosaic Idealize.SL.Sem

variable {F : FTy → Type} [FloatOps F]

-- The three columns a row tile carries along the vocabulary axis: running maximum, running sum of exponentials, selected logit.
abbrev Cols (F : FTy → Type) : Type := Vec F S1024x1 .f32 × Vec F S1024x1 .f32 × Vec F S1024x1 .f32

-- What the first vocabulary tile of a row tile starts from.
def reset0 : Cols F := (k0_pay5 (F := F), k0_pay6 (F := F), k0_pay7 (F := F))

-- One vocabulary tile's update of the carried columns from the row block, the weight block and the id column.
def step0 (i : grid0.Coords) (h : Vec F S1024x1024 .bf16) (w : Vec F S1280x1024 .f32) (ids : Vec F S1024x1 .i32) (s : Cols F) : Cols F :=
  (k0_pay3 (k0_pay10 h w s.1), k0_pay1 (k0_pay11 h w s.1 s.1 s.2.1), k0_pay2 (k0_pay9 i h w ids) s.2.2)

-- What the last vocabulary tile writes out: selected logit minus (maximum plus log of the sum).
def fin0 (s : Cols F) : Vec F S1024 .f32 := k0_pay4 s.2.2 s.1 s.2.1

end Cert.Kernel.Hand

end
-- ==== Proof.K.Shared0.lean ====
import proofs.«423802_j62801011802684_3_alg».proof.Proof.Gen.Kernel.Launch
import proofs.«423802_j62801011802684_3_alg».proof.Proof.Gen.Kernel.Skeleton
import proofs.«423802_j62801011802684_3_alg».proof.Proof.Gen.Kernel.Points
import proofs.«423802_j62801011802684_3_alg».proof.Proof.K.LmStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's two conditions in closed form over the grid (point t = 25·i + k): the columns are reset exactly at k = 0,
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

-- and the log-probabilities are written out exactly at k = 24.
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel

theorem noFlush0_3 : ∀ t : Fin cfg0.N, ¬cond0_1 (grid0.coords t) → (cfg0.win 3).flush t = false := by decide +kernel

theorem liveAt0_3 : ∀ t : Fin cfg0.N, cond0_1 (grid0.coords t) → cfg0.idle 3 (grid0.coords t) = false := by decide +kernel

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

-- The part of the core's state the body never touches.
def Rest0 (c : Dev nD) : sProp 𝕄 :=
  Pipeline.scopedRestBut (Ix := Unit) (Name := ℕ) (U := UR sig nD τ) (Lvl := ℕ) (Val := Elt F) spec0 c [cc0_scratch0, cc0_scratch1, cc0_scratch2]

-- The call's invariant with the three columns singled out, each owned at some contents.
theorem PhiA0_eq (c : Dev nD) :
    (Pipeline.ΦA spec0 c : sProp 𝕄)
      = iprop((((∃ d, owns (c : Thread nD τ) scM0_0 fullShare d) ∗ (∃ d, owns (c : Thread nD τ) scM0_1 fullShare d)
          ∗ (∃ d, owns (c : Thread nD τ) scM0_2 fullShare d)) ∗ Rest0 c) ∗ (∃ r, prngReg c r)) := by
  unfold Pipeline.ΦA Rest0
  rw [Pipeline.scopedRest_split_of_list spec0 c [cc0_scratch0, cc0_scratch1, cc0_scratch2] (by decide) (by decide)]
  simp only [scM0_0, scM0_1, scM0_2, owns_whole]; rfl

end Cert.Kernel.Hand

end
-- ==== Proof.K.Run0.lean ====
import proofs.«423802_j62801011802684_3_alg».proof.Proof.K.Shared0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a <;> rfl

-- First vocabulary tile: the columns, found at anything, end at the step from the reset values; blocks and output buffer are left as found.
set_option maxHeartbeats 4000000 in
theorem run0_A (c : Dev nD) (E : Set ℕ) (i : grid0.Coords)
    (arg2 : Memref sig .tc .vmem S1024x1024 .bf16) (harg2 : arg2.IsWhole) (arg3 : Memref sig .tc .vmem S1280x1024 .f32) (harg3 : arg3.IsWhole)
    (arg4 : Memref sig .tc .vmem S1024x1 .i32) (harg4 : arg4.IsWhole) (arg5 : Memref sig .tc .vmem S1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : cond0_0 i) (hc1 : ¬cond0_1 i)
    (x0 : Vec F S1024x1024 .bf16) (x1 : Vec F S1280x1024 .f32) (x2 : Vec F S1024x1 .i32) (xo : Vec F S1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (step0 i x0 x1 x2 reset0).1 ∗ owns (c : Thread nD τ) arg7 fullShare (step0 i x0 x1 x2 reset0).2.1 ∗ owns (c : Thread nD τ) arg8 fullShare (step0 i x0 x1 x2 reset0).2.2) -∗ K ⟨⟩))
      ⊢ wp frame (wpE (defs₀ (F := F)) Variants.none c none) E (cc0__lm_head_kernel i arg2 harg2 arg3 harg3 arg4 harg4 arg5 harg5 arg6 harg6 arg7 harg7 arg8 harg8) K := by
  simp only [cc0__lm_head_kernel_eq_skeleton]; unfold cc0__lm_head_kernel_skel
  simp only [k0_part1_eq_skeleton]
  unfold owns
  iintro ⟨⟨%f0, %hf0, H0⟩, ⟨%f1, %hf1, H1⟩, ⟨%f2, %hf2, H2⟩, ⟨%fo, %hfo, Ho⟩, ⟨%d6, %f6, -, H6⟩, ⟨%d7, %f7, -, H7⟩, ⟨%d8, %f8, -, H8⟩, Hk⟩
  subst hf0 hf1 hf2 hfo
  sl_exec (disch := first | exact hc0 | exact hc1)
  sl_step
  iapply Hk
  isplitl [H0]; swap; isplitl [H1]; swap; isplitl [H2]; swap; isplitl [Ho]; swap; isplitl [H6]; swap; isplitl [H7]; swap
  all_goals (iexists _; isplitr; swap; · iassumption
             ipureintro
             first
               | (sl_unfold_words
                  first
                    | rw [View.read_writes_eq_canon _ _ _ (fun y => ⟨_, List.Mem.head _, View.mem_set_unit_zero hz2 inb_S1024x1_S1024x1_0_0 y⟩), View.canon_cons_unit_zero hz2]
                    | rw [View.read_writes_eq_canon _ _ _ (fun y => ⟨_, List.Mem.head _, View.mem_set_unit_zero hz1 inb_S1024_S1024_0 y⟩), View.canon_cons_unit_zero hz1]
                  simp only [step0, reset0, fin0, View.readAt_eq_ld, View.ld_unit_zero (S := S1024x1) hz2, View.ld_unit_zero (S := S1024x1024) hz2, View.ld_unit_zero (S := S1280x1024) hz2, View.ld_unit_zero (S := S1024) hz1, View.readCov_unit_zero (S := S1024x1) _ hz2])
               | rfl)

-- Middle tile: the columns end at the step from what they held; blocks and output buffer are left as found.
set_option maxHeartbeats 4000000 in
theorem run0_B (c : Dev nD) (E : Set ℕ) (i : grid0.Coords)
    (arg2 : Memref sig .tc .vmem S1024x1024 .bf16) (harg2 : arg2.IsWhole) (arg3 : Memref sig .tc .vmem S1280x1024 .f32) (harg3 : arg3.IsWhole)
    (arg4 : Memref sig .tc .vmem S1024x1 .i32) (harg4 : arg4.IsWhole) (arg5 : Memref sig .tc .vmem S1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond0_0 i) (hc1 : ¬cond0_1 i)
    (x0 : Vec F S1024x1024 .bf16) (x1 : Vec F S1280x1024 .f32) (x2 : Vec F S1024x1 .i32) (xo : Vec F S1024 .f32) (xm xl xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ owns (c : Thread nD τ) arg6 fullShare xm ∗ owns (c : Thread nD τ) arg7 fullShare xl ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (step0 i x0 x1 x2 (xm, xl, xs)).1 ∗ owns (c : Thread nD τ) arg7 fullShare (step0 i x0 x1 x2 (xm, xl, xs)).2.1 ∗ owns (c : Thread nD τ) arg8 fullShare (step0 i x0 x1 x2 (xm, xl, xs)).2.2) -∗ K ⟨⟩))
      ⊢ wp frame (wpE (defs₀ (F := F)) Variants.none c none) E (cc0__lm_head_kernel i arg2 harg2 arg3 harg3 arg4 harg4 arg5 harg5 arg6 harg6 arg7 harg7 arg8 harg8) K := by
  simp only [cc0__lm_head_kernel_eq_skeleton]; unfold cc0__lm_head_kernel_skel
  simp only [k0_part1_eq_skeleton]
  unfold owns
  iintro ⟨⟨%f0, %hf0, H0⟩, ⟨%f1, %hf1, H1⟩, ⟨%f2, %hf2, H2⟩, ⟨%fo, %hfo, Ho⟩, ⟨%f6, %hf6, H6⟩, ⟨%f7, %hf7, H7⟩, ⟨%f8, %hf8, H8⟩, Hk⟩
  subst hf0 hf1 hf2 hfo hf6 hf7 hf8
  sl_exec (disch := first | exact hc0 | exact hc1)
  sl_step
  iapply Hk
  isplitl [H0]; swap; isplitl [H1]; swap; isplitl [H2]; swap; isplitl [Ho]; swap; isplitl [H6]; swap; isplitl [H7]; swap
  all_goals (iexists _; isplitr; swap; · iassumption
             ipureintro
             first
               | (sl_unfold_words
                  first
                    | rw [View.read_writes_eq_canon _ _ _ (fun y => ⟨_, List.Mem.head _, View.mem_set_unit_zero hz2 inb_S1024x1_S1024x1_0_0 y⟩), View.canon_cons_unit_zero hz2]
                    | rw [View.read_writes_eq_canon _ _ _ (fun y => ⟨_, List.Mem.head _, View.mem_set_unit_zero hz1 inb_S1024_S1024_0 y⟩), View.canon_cons_unit_zero hz1]
                  simp only [step0, reset0, fin0, View.readAt_eq_ld, View.ld_unit_zero (S := S1024x1) hz2, View.ld_unit_zero (S := S1024x1024) hz2, View.ld_unit_zero (S := S1280x1024) hz2, View.ld_unit_zero (S := S1024) hz1, View.readCov_unit_zero (S := S1024x1) _ hz2])
               | rfl)

-- Last tile: the columns are updated as before and the output buffer, found at anything, ends at the log-probabilities of the updated columns.
set_option maxHeartbeats 4000000 in
theorem run0_C (c : Dev nD) (E : Set ℕ) (i : grid0.Coords)
    (arg2 : Memref sig .tc .vmem S1024x1024 .bf16) (harg2 : arg2.IsWhole) (arg3 : Memref sig .tc .vmem S1280x1024 .f32) (harg3 : arg3.IsWhole)
    (arg4 : Memref sig .tc .vmem S1024x1 .i32) (harg4 : arg4.IsWhole) (arg5 : Memref sig .tc .vmem S1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond0_0 i) (hc1 : cond0_1 i)
    (x0 : Vec F S1024x1024 .bf16) (x1 : Vec F S1280x1024 .f32) (x2 : Vec F S1024x1 .i32) (xm xl xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare xm ∗ owns (c : Thread nD τ) arg7 fullShare xl ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (fin0 (step0 i x0 x1 x2 (xm, xl, xs)))
            ∗ owns (c : Thread nD τ) arg6 fullShare (step0 i x0 x1 x2 (xm, xl, xs)).1 ∗ owns (c : Thread nD τ) arg7 fullShare (step0 i x0 x1 x2 (xm, xl, xs)).2.1 ∗ owns (c : Thread nD τ) arg8 fullShare (step0 i x0 x1 x2 (xm, xl, xs)).2.2) -∗ K ⟨⟩))
      ⊢ wp frame (wpE (defs₀ (F := F)) Variants.none c none) E (cc0__lm_head_kernel i arg2 harg2 arg3 harg3 arg4 harg4 arg5 harg5 arg6 harg6 arg7 harg7 arg8 harg8) K := by
  simp only [cc0__lm_head_kernel_eq_skeleton]; unfold cc0__lm_head_kernel_skel
  simp only [k0_part1_eq_skeleton]
  unfold owns
  iintro ⟨⟨%f0, %hf0, H0⟩, ⟨%f1, %hf1, H1⟩, ⟨%f2, %hf2, H2⟩, ⟨%dout, %fo, -, Ho⟩, ⟨%f6, %hf6, H6⟩, ⟨%f7, %hf7, H7⟩, ⟨%f8, %hf8, H8⟩, Hk⟩
  subst hf0 hf1 hf2 hf6 hf7 hf8
  sl_exec (disch := first | exact hc0 | exact hc1)
  sl_step
  iapply Hk
  isplitl [H0]; swap; isplitl [H1]; swap; isplitl [H2]; swap; isplitl [Ho]; swap; isplitl [H6]; swap; isplitl [H7]; swap
  all_goals (iexists _; isplitr; swap; · iassumption
             ipureintro
             first
               | (sl_unfold_words
                  first
                    | rw [View.read_writes_eq_canon _ _ _ (fun y => ⟨_, List.Mem.head _, View.mem_set_unit_zero hz2 inb_S1024x1_S1024x1_0_0 y⟩), View.canon_cons_unit_zero hz2]
                    | rw [View.read_writes_eq_canon _ _ _ (fun y => ⟨_, List.Mem.head _, View.mem_set_unit_zero hz1 inb_S1024_S1024_0 y⟩), View.canon_cons_unit_zero hz1]
                  simp only [step0, reset0, fin0, View.readAt_eq_ld, View.ld_unit_zero (S := S1024x1) hz2, View.ld_unit_zero (S := S1024x1024) hz2, View.ld_unit_zero (S := S1280x1024) hz2, View.ld_unit_zero (S := S1024) hz1, View.readCov_unit_zero (S := S1024x1) _ hz2])
               | rfl)

end Cert.Kernel.Hand

end
-- ==== Proof.K.Dat0.lean ====
import proofs.«423802_j62801011802684_3_alg».proof.Proof.K.Shared0
import proofs.«423802_j62801011802684_3_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

-- Window w's block at point t, read off its array as the call finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

-- The carried columns after grid position n: the step from the reset values at the first tile of a row tile, else from what position n - 1 left.
def scAt0 (c : Dev nD) : (n : ℕ) → n < cfg0.N → Cols F
  | 0, hn => step0 (grid0.coords ⟨0, hn⟩) (iblk0 V c 0 ⟨0, hn⟩) (iblk0 V c 1 ⟨0, hn⟩) (iblk0 V c 2 ⟨0, hn⟩) reset0
  | n + 1, hn =>
    if (n + 1) % 25 = 0 then step0 (grid0.coords ⟨n + 1, hn⟩) (iblk0 V c 0 ⟨n + 1, hn⟩) (iblk0 V c 1 ⟨n + 1, hn⟩) (iblk0 V c 2 ⟨n + 1, hn⟩) reset0
    else step0 (grid0.coords ⟨n + 1, hn⟩) (iblk0 V c 0 ⟨n + 1, hn⟩) (iblk0 V c 1 ⟨n + 1, hn⟩) (iblk0 V c 2 ⟨n + 1, hn⟩) (scAt0 c n (Nat.lt_of_succ_lt hn))

theorem scAt0_first (c : Dev nD) (t : Fin cfg0.N) (h0 : t.val % 25 = 0) :
    scAt0 V c t.val t.isLt = step0 (grid0.coords t) (iblk0 V c 0 t) (iblk0 V c 1 t) (iblk0 V c 2 t) reset0 := by
  obtain ⟨n, hn⟩ := t
  cases n with
  | zero => rfl
  | succ n => exact if_pos h0

theorem scAt0_later (c : Dev nD) (t : Fin cfg0.N) (h0 : ¬t.val % 25 = 0) :
    scAt0 V c t.val t.isLt = step0 (grid0.coords t) (iblk0 V c 0 t) (iblk0 V c 1 t) (iblk0 V c 2 t)
      (scAt0 V c (t.val - 1) (Nat.lt_of_le_of_lt (Nat.sub_le _ _) t.isLt)) := by
  obtain ⟨n, hn⟩ := t
  cases n with
  | zero => exact absurd (Nat.zero_mod _) h0
  | succ n => exact if_neg h0

-- The invariant before position n: the call's own before the first, afterwards the columns at exactly what the position before left.
def PhiS0 (c : Dev nD) : (n : ℕ) → n ≤ cfg0.N → sProp 𝕄
  | 0, _ => Pipeline.ΦA spec0 c
  | n + 1, hn => iprop(((owns (c : Thread nD τ) scM0_0 fullShare (scAt0 V c n hn).1 ∗ owns (c : Thread nD τ) scM0_1 fullShare (scAt0 V c n hn).2.1
      ∗ owns (c : Thread nD τ) scM0_2 fullShare (scAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (scAt0 V c n hn).1 ∗ owns (c : Thread nD τ) scM0_1 fullShare (scAt0 V c n hn).2.1
      ∗ owns (c : Thread nD τ) scM0_2 fullShare (scAt0 V c n hn).2.2) ∗ Rest0 c) ∗ (∃ r, prngReg c r)) := rfl

theorem PhiS0_pos (c : Dev nD) (n : ℕ) (h : n ≤ cfg0.N) (hz : n ≠ 0) :
    PhiS0 V c n h = iprop(((owns (c : Thread nD τ) scM0_0 fullShare (scAt0 V c (n - 1) (by omega)).1 ∗ owns (c : Thread nD τ) scM0_1 fullShare (scAt0 V c (n - 1) (by omega)).2.1
      ∗ owns (c : Thread nD τ) scM0_2 fullShare (scAt0 V c (n - 1) (by omega)).2.2) ∗ Rest0 c) ∗ (∃ r, prngReg c r)) := by
  cases n with
  | zero => exact absurd rfl hz
  | succ n => rfl

-- The call's proof data: inputs keep their blocks, the output block holds the log-probabilities after a row tile's last vocabulary tile.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fin0 (scAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = fin0 (scAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t) := by
  refine ⟨?_, ?_, ?_⟩
  · unfold Dat.leavesExact; rw [liveAt0_0 t, after0_0]
  · unfold Dat.leavesExact; rw [liveAt0_1 t, after0_1]
  · unfold Dat.leavesExact; rw [liveAt0_2 t, after0_2]

-- The body at any point: the position modulo 25 selects one of the three runs; the invariant lends the columns and takes them back updated.
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  obtain ⟨hl0, hl1, hl2⟩ := leaves0_in V c t
  rw [hl0, hl1, hl2]
  have hN : t.val < 50 := lt_of_lt_of_eq t.isLt (show cfg0.N = 50 from N_0)
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1), scAt0_first V c t h0]
    have hΦ : (dat0 V c).Φ t.castSucc ⊢ iprop((((∃ d, owns (c : Thread nD τ) scM0_0 fullShare d) ∗ (∃ d, owns (c : Thread nD τ) scM0_1 fullShare d)
          ∗ (∃ d, owns (c : Thread nD τ) scM0_2 fullShare d)) ∗ Rest0 c) ∗ (∃ r, prngReg c r)) := by
      rw [Phi0_castSucc V c t]
      by_cases hz : t.val = 0
      · rw [PhiS0_zero V c _ _ hz, PhiA0_eq]
      · rw [PhiS0_pos V c _ _ hz]
        iintro ⟨⟨⟨H6, H7, H8⟩, HR⟩, Hg⟩
        isplitr [Hg]
        · isplitr [HR]
          · isplitl [H6]; · iexists _; iexact H6
            isplitl [H7]; · iexists _; iexact H7
            iexists _; iexact H8
          iexact HR
        iexact Hg
    iintro ⟨HΦ, Ho, ⟨%d0, H0⟩, ⟨%d1, H1⟩, ⟨%d2, H2⟩, ⟨%d3, H3⟩⟩
    ihave HΦ' := hΦ $$ HΦ
    icases HΦ' with ⟨⟨⟨H6, H7, H8⟩, HR⟩, Hg⟩
    iapply (run0_A c Set.univ (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk0 V c 0 t) (iblk0 V c 1 t) (iblk0 V c 2 t) _ _)
    isplitl [H0]; · iexact H0
    isplitl [H1]; · iexact H1
    isplitl [H2]; · iexact H2
    isplitl [H3]; · iexact H3
    isplitl [H6]; · iexact H6
    isplitl [H7]; · iexact H7
    isplitl [H8]; · iexact H8
    iintro ⟨H0, H1, H2, H3, H6, H7, H8⟩
    isplitl [H6 H7 H8 HR Hg]
    · isplitr [Hg]
      · isplitr [HR]
        · isplitl [H6]; · iexact H6
          isplitl [H7]; · iexact H7
          iexact H8
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond0_0 (grid0.coords t) := fun h => h0 ((hcond0_0 t).mp h)
    rw [Phi0_castSucc V c t, PhiS0_pos V c _ _ hz, scAt0_later V c t h0]
    by_cases h1 : t.val % 25 = 24
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, scAt0_later V c t h0]
      iintro ⟨⟨⟨⟨H6, H7, H8⟩, HR⟩, Hg⟩, Ho, ⟨%d0, H0⟩, ⟨%d1, H1⟩, ⟨%d2, H2⟩, ⟨%d3, H3⟩⟩
      iapply (run0_C c Set.univ (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk0 V c 0 t) (iblk0 V c 1 t) (iblk0 V c 2 t) _ _ _ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨⟨H6, H7, H8⟩, HR⟩, Hg⟩, Ho, ⟨%d0, H0⟩, ⟨%d1, H1⟩, ⟨%d2, H2⟩, ⟨%d3, H3⟩⟩
      iapply (run0_B c Set.univ (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk0 V c 0 t) (iblk0 V c 1 t) (iblk0 V c 2 t) _ _ _ _ _)
      isplitl [H0]; · iexact H0
      isplitl [H1]; · iexact H1
      isplitl [H2]; · iexact H2
      isplitl [H3]; · iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

-- After the last point the columns' contents are forgotten and the call's invariant is back.
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨⟨H6, H7, H8⟩, HR⟩, Hg⟩
  isplitr [Hg]
  · isplitr [HR]
    · isplitl [H6]; · iexists _; iexact H6
      isplitl [H7]; · iexists _; iexact H7
      iexists _; iexact H8
    iexact HR
  iexact Hg

end R0

end Cert.Kernel.Hand

end
-- ==== Proof.K.Shared1.lean ====
import proofs.«423802_j62801011802684_3_alg».proof.Proof.Gen.Kernel.Launch
import proofs.«423802_j62801011802684_3_alg».proof.Proof.Gen.Kernel.Skeleton
import proofs.«423802_j62801011802684_3_alg».proof.Proof.Gen.Kernel.Points
import proofs.«423802_j62801011802684_3_alg».proof.Proof.K.LmStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's two conditions in closed form over the grid (point t = 25·i + k): the columns are reset exactly at k = 0,
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

-- and the log-probabilities are written out exactly at k = 24.
abbrev cond1_1 (i : grid1.Coords) : Prop := k0_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel

theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024 .f32 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

-- The part of the core's state the body never touches.
def Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

-- The call's invariant with the three columns singled out, each owned at some contents.
theorem PhiA1_eq (c : Dev nD) :
    (Pipeline.ΦA spec1 c : sProp 𝕄)
      = iprop((((∃ d, owns (c : Thread nD τ) scM1_0 fullShare d) ∗ (∃ d, owns (c : Thread nD τ) scM1_1 fullShare d)
          ∗ (∃ d, owns (c : Thread nD τ) scM1_2 fullShare d)) ∗ Rest1 c) ∗ (∃ r, prngReg c r)) := by
  unfold Pipeline.ΦA Rest1
  rw [Pipeline.scopedRest_split_of_list spec1 c [cc1_scratch0, cc1_scratch1, cc1_scratch2] (by decide) (by decide)]
  simp only [scM1_0, scM1_1, scM1_2, owns_whole]; rfl

end Cert.Kernel.Hand

end
-- ==== Proof.K.Dat1.lean ====
import proofs.«423802_j62801011802684_3_alg».proof.Proof.K.Shared1
import proofs.«423802_j62801011802684_3_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

-- Window w's block at point t, read off its array as the call finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

-- The carried columns after grid position n: the step from the reset values at the first tile of a row tile, else from what position n - 1 left.
def scAt1 (c : Dev nD) : (n : ℕ) → n < cfg1.N → Cols F
  | 0, hn => step0 (grid1.coords ⟨0, hn⟩) (iblk1 V c 0 ⟨0, hn⟩) (iblk1 V c 1 ⟨0, hn⟩) (iblk1 V c 2 ⟨0, hn⟩) reset0
  | n + 1, hn =>
    if (n + 1) % 25 = 0 then step0 (grid1.coords ⟨n + 1, hn⟩) (iblk1 V c 0 ⟨n + 1, hn⟩) (iblk1 V c 1 ⟨n + 1, hn⟩) (iblk1 V c 2 ⟨n + 1, hn⟩) reset0
    else step0 (grid1.coords ⟨n + 1, hn⟩) (iblk1 V c 0 ⟨n + 1, hn⟩) (iblk1 V c 1 ⟨n + 1, hn⟩) (iblk1 V c 2 ⟨n + 1, hn⟩) (scAt1 c n (Nat.lt_of_succ_lt hn))

theorem scAt1_first (c : Dev nD) (t : Fin cfg1.N) (h0 : t.val % 25 = 0) :
    scAt1 V c t.val t.isLt = step0 (grid1.coords t) (iblk1 V c 0 t) (iblk1 V c 1 t) (iblk1 V c 2 t) reset0 := by
  obtain ⟨n, hn⟩ := t
  cases n with
  | zero => rfl
  | succ n => exact if_pos h0

theorem scAt1_later (c : Dev nD) (t : Fin cfg1.N) (h0 : ¬t.val % 25 = 0) :
    scAt1 V c t.val t.isLt = step0 (grid1.coords t) (iblk1 V c 0 t) (iblk1 V c 1 t) (iblk1 V c 2 t)
      (scAt1 V c (t.val - 1) (Nat.lt_of_le_of_lt (Nat.sub_le _ _) t.isLt)) := by
  obtain ⟨n, hn⟩ := t
  cases n with
  | zero => exact absurd (Nat.zero_mod _) h0
  | succ n => exact if_neg h0

-- The invariant before position n: the call's own before the first, afterwards the columns at exactly what the position before left.
def PhiS1 (c : Dev nD) : (n : ℕ) → n ≤ cfg1.N → sProp 𝕄
  | 0, _ => Pipeline.ΦA spec1 c
  | n + 1, hn => iprop(((owns (c : Thread nD τ) scM1_0 fullShare (scAt1 V c n hn).1 ∗ owns (c : Thread nD τ) scM1_1 fullShare (scAt1 V c n hn).2.1
      ∗ owns (c : Thread nD τ) scM1_2 fullShare (scAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (scAt1 V c n hn).1 ∗ owns (c : Thread nD τ) scM1_1 fullShare (scAt1 V c n hn).2.1
      ∗ owns (c : Thread nD τ) scM1_2 fullShare (scAt1 V c n hn).2.2) ∗ Rest1 c) ∗ (∃ r, prngReg c r)) := rfl

theorem PhiS1_pos (c : Dev nD) (n : ℕ) (h : n ≤ cfg1.N) (hz : n ≠ 0) :
    PhiS1 V c n h = iprop(((owns (c : Thread nD τ) scM1_0 fullShare (scAt1 V c (n - 1) (by omega)).1 ∗ owns (c : Thread nD τ) scM1_1 fullShare (scAt1 V c (n - 1) (by omega)).2.1
      ∗ owns (c : Thread nD τ) scM1_2 fullShare (scAt1 V c (n - 1) (by omega)).2.2) ∗ Rest1 c) ∗ (∃ r, prngReg c r)) := by
  cases n with
  | zero => exact absurd rfl hz
  | succ n => rfl

-- The call's proof data: inputs keep their blocks, the output block holds the log-probabilities after a row tile's last vocabulary tile.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin0 (scAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin0 (scAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

-- The body at any point: the position modulo 25 selects one of the three runs; the invariant lends the columns and takes them back updated.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2⟩ := leaves1_in V c t
  rw [hl0, hl1, hl2]
  have hN : t.val < 50 := lt_of_lt_of_eq t.isLt (show cfg1.N = 50 from N_1)
  by_cases h0 : t.val % 25 = 0
  · have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1), scAt1_first V c t h0]
    have hΦ : (dat1 V c).Φ t.castSucc ⊢ iprop((((∃ d, owns (c : Thread nD τ) scM1_0 fullShare d) ∗ (∃ d, owns (c : Thread nD τ) scM1_1 fullShare d)
          ∗ (∃ d, owns (c : Thread nD τ) scM1_2 fullShare d)) ∗ Rest1 c) ∗ (∃ r, prngReg c r)) := by
      rw [Phi1_castSucc V c t]
      by_cases hz : t.val = 0
      · rw [PhiS1_zero V c _ _ hz, PhiA1_eq]
      · rw [PhiS1_pos V c _ _ hz]
        iintro ⟨⟨⟨H6, H7, H8⟩, HR⟩, Hg⟩
        isplitr [Hg]
        · isplitr [HR]
          · isplitl [H6]; · iexists _; iexact H6
            isplitl [H7]; · iexists _; iexact H7
            iexists _; iexact H8
          iexact HR
        iexact Hg
    iintro ⟨HΦ, Ho, ⟨%d0, H0⟩, ⟨%d1, H1⟩, ⟨%d2, H2⟩, ⟨%d3, H3⟩⟩
    ihave HΦ' := hΦ $$ HΦ
    icases HΦ' with ⟨⟨⟨H6, H7, H8⟩, HR⟩, Hg⟩
    iapply (run0_A c Set.univ (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [H6]; · iexact H6
    isplitl [H7]; · iexact H7
    isplitl [H8]; · iexact H8
    iintro ⟨H0, H1, H2, H3, H6, H7, H8⟩
    isplitl [H6 H7 H8 HR Hg]
    · isplitr [Hg]
      · isplitr [HR]
        · isplitl [H6]; · iexact H6
          isplitl [H7]; · iexact H7
          iexact H8
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond1_0 (grid1.coords t) := fun h => h0 ((hcond1_0 t).mp h)
    rw [Phi1_castSucc V c t, PhiS1_pos V c _ _ hz, scAt1_later V c t h0]
    by_cases h1 : t.val % 25 = 24
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, scAt1_later V c t h0]
      iintro ⟨⟨⟨⟨H6, H7, H8⟩, HR⟩, Hg⟩, Ho, ⟨%d0, H0⟩, ⟨%d1, H1⟩, ⟨%d2, H2⟩, ⟨%d3, H3⟩⟩
      iapply (run0_C c Set.univ (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨⟨H6, H7, H8⟩, HR⟩, Hg⟩, Ho, ⟨%d0, H0⟩, ⟨%d1, H1⟩, ⟨%d2, H2⟩, ⟨%d3, H3⟩⟩
      iapply (run0_B c Set.univ (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

-- After the last point the columns' contents are forgotten and the call's invariant is back.
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨⟨⟨H6, H7, H8⟩, HR⟩, Hg⟩
  isplitr [Hg]
  · isplitr [HR]
    · isplitl [H6]; · iexists _; iexact H6
      isplitl [H7]; · iexists _; iexact H7
      iexists _; iexact H8
    iexact HR
  iexact Hg

end R1

end Cert.Kernel.Hand

end
-- ==== Proof.K.Ep.lean ====
import proofs.«423802_j62801011802684_3_alg».proof.Proof.Gen.Kernel.Launch
import proofs.«423802_j62801011802684_3_alg».proof.Proof.Gen.Kernel.Skeleton
import proofs.«423802_j62801011802684_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S4x512 := Rect.unit (s := S4x512) ![0, 0] S4x512.size inb_S4x512_S4x512_0_0
abbrev r2_2 : Rect S4x1 := Rect.unit (s := S4x1) ![0, 0] S4x1.size inb_S4x1_S4x1_0_0
abbrev r2_4 : Rect S1x1 := Rect.unit (s := S1x1) ![0, 0] S1x1.size inb_S1x1_S1x1_0_0

def out2_4 (x0 x1 : Vec F S4x512 .f32) (x2 : Vec F S4x1 .f32) (x3 : Vec F S4x512 .i32) : Vec F S1x1 .f32 :=
  View.canon [⟨r2_4, k2_pay1 (View.ld x0 r2_0) (View.ld x1 r2_0) (View.ld x2 r2_2) (View.ld x3 r2_0)⟩]

theorem cover2_4 (p0 : Vec F S1x1 .f32) (y : S1x1.Idx) :
    ∃ pc ∈ ([⟨r2_4, p0⟩] : List (View.Piece (Elt F) S1x1 .f32)), y ∈ pc.1.set :=
  View.cover_of_tiled [⟨r2_4, p0⟩] S1x1.size (by rfl) y

set_option maxHeartbeats 1000000 in
theorem sound_kernel2 (c : Dev nD) (E : Set ℕ) (i : grid2.Coords)
    (arg1 : Memref sig .tc .vmem S4x512 .f32) (harg1 : arg1.IsWhole) (arg2 : Memref sig .tc .vmem S4x512 .f32) (harg2 : arg2.IsWhole)
    (arg3 : Memref sig .tc .vmem S4x1 .f32) (harg3 : arg3.IsWhole) (arg4 : Memref sig .tc .vmem S4x512 .i32) (harg4 : arg4.IsWhole)
    (arg5 : Memref sig .tc .vmem S1x1 .f32) (harg5 : arg5.IsWhole)
    (x0 x1 : Vec F S4x512 .f32) (x2 : Vec F S4x1 .f32) (x3 : Vec F S4x512 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__grpo_epilogue_kernel i arg1 harg1 arg2 harg2 arg3 harg3 arg4 harg4 arg5 harg5) K := by
  simp only [cc2__grpo_epilogue_kernel_eq_skeleton]; unfold cc2__grpo_epilogue_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.MainRun.lean ====
import proofs.«423802_j62801011802684_3_alg».proof.Proof.K.Dat0
import proofs.«423802_j62801011802684_3_alg».proof.Proof.K.Dat1
import proofs.«423802_j62801011802684_3_alg».proof.Proof.K.Ep
import proofs.«423802_j62801011802684_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps3 (W8 m ρ c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

abbrev toV (W : Dev nD → Valuation τ sig (Elt F)) : (c : Dev nD) → (b : Ref sig .tc) → Buf (Elt F) ((c : Thread nD τ).loc b) :=
  fun c b => W c b

set_option backward.isDefEq.respectTransparency.types false in
/-- A kernel region between the held valuations Wb and Wa: its arrays are split out of Wb on entry and put back at Wa on exit. -/
def mkReg (p : Fin 3) (launch : Pipeline.LaunchFacts (nD := nD) (τ := τ) cfgs p) (Wb Wa : Dev nD → Valuation τ sig (Elt F))
    (hbody : ∀ c, Pipeline.BodyObligationLoose (pdats m ρ p c) defs₀ 𝒱₀ () Set.univ)
    (howed : ∀ c t, (pdats m ρ p c).owed t = 0)
    (hq : ∀ c w, (pdats m ρ p c).q w = fullShare) (hrec : ∀ c, (pdats m ρ p c).recorded 0 = Set.univ)
    (hA : ∀ c w, (pdats m ρ p c).A w = toV Wb c (Pipeline.arrRef (Pipeline.pin (pcfgs (F := F)) adm p).spec w))
    (hΦ0 : ∀ c, (pdats m ρ p c).Φ 0 = Pipeline.ΦA (Pipeline.pin (pcfgs (F := F)) adm p).spec c)
    (hΦN : ∀ c, (pdats m ρ p c).Φ (Fin.last _) ⊢ Pipeline.ΦA (Pipeline.pin (pcfgs (F := F)) adm p).spec c)
    (hWa : ∀ c, Wa c = Pipeline.withArrays (Pipeline.pin (pcfgs (F := F)) adm p).spec c (Wb c) fun w => (pdats m ρ p c).arrAt w (Pipeline.pin (pcfgs (F := F)) adm p).N) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wb c) ∗ R c)
  post c := iprop(StableHlo.held (c : Thread nD τ) (Pipeline.ucRefs τ sig) (Wa c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (toV Wb c)
  hentry c := by
    rw [Pipeline.ownSems0_none]
    have hsplit := Pipeline.arrays_of_unscopedBufs (p := p) (pcfgs (F := F)) adm (pdats m ρ) launch.win launch.arr_whole c
      ((pdats m ρ p c).share_full (hq c)) (toV Wb c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (toV Wb c) (toV Wa c) ((pdats m ρ p c).arrAt · (Pipeline.pin (pcfgs (F := F)) adm p).N)
      (fun w => by
        have h := Pipeline.withArrays_arr (Pipeline.pin (pcfgs (F := F)) adm p).spec launch.win.arr_inj c (Wb c) (fun w => (pdats m ρ p c).arrAt w (Pipeline.pin (pcfgs (F := F)) adm p).N) w
        rw [← hWa c] at h
        exact h.symm)
      (fun b hb => by
        show Wa c _ = Wb c _
        rw [hWa c]
        exact Pipeline.withArrays_of_ne (Pipeline.pin (pcfgs (F := F)) adm p).spec c (Wb c) _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) adm (pdats m ρ) () defs₀ 𝒱₀ L lv 0 :=
  mkReg m ρ 0 launch0 (W3 m ρ) (W4 m ρ) (fun c => (body_obligation0 (V3 m ρ) c).loose) (fun _ _ => rfl) (fun _ _ => rfl) (fun _ => rfl) (fun _ _ => rfl)
    (fun _ => rfl) (hout0 (V3 m ρ)) (fun _ => rfl)

set_option backward.isDefEq.respectTransparency.types false in
def reg1 : Pipeline.RegionSeg (pcfgs (F := F)) adm (pdats m ρ) () defs₀ 𝒱₀ L lv 1 :=
  mkReg m ρ 1 launch1 (W5 m ρ) (W6 m ρ) (fun c => (body_obligation1 (V5 m ρ) c).loose) (fun _ _ => rfl) (fun _ _ => rfl) (fun _ => rfl) (fun _ _ => rfl)
    (fun _ => rfl) (hout1 (V5 m ρ)) (fun _ => rfl)

set_option backward.isDefEq.respectTransparency.types false in
def reg2 : Pipeline.RegionSeg (pcfgs (F := F)) adm (pdats m ρ) () defs₀ 𝒱₀ L lv 2 :=
  mkReg m ρ 2 launch2 (W7 m ρ) (W8 m ρ) (fun c => (body_obligation2 (V7 m ρ) c).loose) (fun _ _ => rfl) (fun _ _ => rfl) (fun _ => rfl) (fun _ _ => rfl)
    (fun _ => rfl) (fun _ => .rfl) (fun _ => rfl)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.K.Frame.lean ====
import proofs.«423802_j62801011802684_3_alg».proof.Proof.K.MainRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem in4_1 (c : Dev nD) : W4 m ρ c (Proc.devRef .tc main_arg5) = W3 m ρ c (Proc.devRef .tc main_arg5) :=
  (W4_arr m ρ c 1).trans (((dat0 (V3 m ρ) c).arrAt_in 1 rfl _).trans (A_eq0 (V3 m ρ) c 1))
theorem in4_2 (c : Dev nD) : W4 m ρ c (Proc.devRef .tc main_v1) = W3 m ρ c (Proc.devRef .tc main_v1) :=
  (W4_arr m ρ c 2).trans (((dat0 (V3 m ρ) c).arrAt_in 2 rfl _).trans (A_eq0 (V3 m ρ) c 2))
theorem in6_1 (c : Dev nD) : W6 m ρ c (Proc.devRef .tc main_arg6) = W5 m ρ c (Proc.devRef .tc main_arg6) :=
  (W6_arr m ρ c 1).trans (((dat1 (V5 m ρ) c).arrAt_in 1 rfl _).trans (A_eq1 (V5 m ρ) c 1))
theorem in8_3 (c : Dev nD) : W8 m ρ c (Proc.devRef .tc main_arg2) = W7 m ρ c (Proc.devRef .tc main_arg2) :=
  (W8_arr m ρ c 3).trans (((dat2 (V7 m ρ) c).arrAt_in 3 rfl _).trans (A_eq2 (V7 m ρ) c 3))

/-- A buffer no host stretch writes and every region leaves as it found it ends as launched. -/
theorem W9_keep (c : Dev nD) (b : Ref sig .tc) (h0 : b ∉ hostOps0_W) (h1 : b ∉ hostOps0_1_W) (h2 : b ∉ hostOps0_2_W)
    (h4 : W4 m ρ c (Proc.devRef .tc b) = W3 m ρ c (Proc.devRef .tc b)) (h5 : b ∉ hostOps1_W)
    (h6 : W6 m ρ c (Proc.devRef .tc b) = W5 m ρ c (Proc.devRef .tc b)) (h7 : b ∉ hostOps2_W)
    (h8 : W8 m ρ c (Proc.devRef .tc b) = W7 m ρ c (Proc.devRef .tc b)) (h9 : b ∉ hostOps3_W) :
    W9 m ρ c (Proc.devRef .tc b) = m ((c : Thread nD τ).loc b) :=
  (StableHlo.after_of_writes_sub hostOps3 _ hostOps3_writes h9).trans <| h8.trans <|
  (StableHlo.after_of_writes_sub hostOps2 _ hostOps2_writes h7).trans <| h6.trans <|
  (StableHlo.after_of_writes_sub hostOps1 _ hostOps1_writes h5).trans <| h4.trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W9_main_arg0 (c : Dev nD) : W9 m ρ c (Proc.devRef .tc main_arg0) = m ((c : Thread nD τ).loc main_arg0) :=
  W9_keep m ρ c main_arg0 (by decide) (by decide) (by decide) (W4_of_ne m ρ c main_arg0 (by decide)) (by decide) (W6_of_ne m ρ c main_arg0 (by decide)) (by decide)
    (W8_of_ne m ρ c main_arg0 (by decide)) (by decide)
theorem W9_main_arg1 (c : Dev nD) : W9 m ρ c (Proc.devRef .tc main_arg1) = m ((c : Thread nD τ).loc main_arg1) :=
  W9_keep m ρ c main_arg1 (by decide) (by decide) (by decide) (W4_of_ne m ρ c main_arg1 (by decide)) (by decide) (W6_of_ne m ρ c main_arg1 (by decide)) (by decide)
    (W8_of_ne m ρ c main_arg1 (by decide)) (by decide)
theorem W9_main_arg2 (c : Dev nD) : W9 m ρ c (Proc.devRef .tc main_arg2) = m ((c : Thread nD τ).loc main_arg2) :=
  W9_keep m ρ c main_arg2 (by decide) (by decide) (by decide) (W4_of_ne m ρ c main_arg2 (by decide)) (by decide) (W6_of_ne m ρ c main_arg2 (by decide)) (by decide)
    (in8_3 m ρ c) (by decide)
theorem W9_main_arg3 (c : Dev nD) : W9 m ρ c (Proc.devRef .tc main_arg3) = m ((c : Thread nD τ).loc main_arg3) :=
  W9_keep m ρ c main_arg3 (by decide) (by decide) (by decide) (W4_of_ne m ρ c main_arg3 (by decide)) (by decide) (W6_of_ne m ρ c main_arg3 (by decide)) (by decide)
    (W8_of_ne m ρ c main_arg3 (by decide)) (by decide)
theorem W9_main_arg4 (c : Dev nD) : W9 m ρ c (Proc.devRef .tc main_arg4) = m ((c : Thread nD τ).loc main_arg4) :=
  W9_keep m ρ c main_arg4 (by decide) (by decide) (by decide) (W4_of_ne m ρ c main_arg4 (by decide)) (by decide) (W6_of_ne m ρ c main_arg4 (by decide)) (by decide)
    (W8_of_ne m ρ c main_arg4 (by decide)) (by decide)
theorem W9_main_arg5 (c : Dev nD) : W9 m ρ c (Proc.devRef .tc main_arg5) = m ((c : Thread nD τ).loc main_arg5) :=
  W9_keep m ρ c main_arg5 (by decide) (by decide) (by decide) (in4_1 m ρ c) (by decide) (W6_of_ne m ρ c main_arg5 (by decide)) (by decide)
    (W8_of_ne m ρ c main_arg5 (by decide)) (by decide)
theorem W9_main_arg6 (c : Dev nD) : W9 m ρ c (Proc.devRef .tc main_arg6) = m ((c : Thread nD τ).loc main_arg6) :=
  W9_keep m ρ c main_arg6 (by decide) (by decide) (by decide) (W4_of_ne m ρ c main_arg6 (by decide)) (by decide) (in6_1 m ρ c) (by decide)
    (W8_of_ne m ρ c main_arg6 (by decide)) (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩) (run_all m ρ)

end Cert.Kernel.Hand

end
-- ==== Proof.KI.LmStep.lean ====
import proofs.«423802_j62801011802684_3_alg».proof.Proof.Gen.KernelIdeal.Skeleton

set_option maxRecDepth 16384

noncomputable section

namespace Cert.KernelIdeal.Hand

open Cert.KernelIdeal Cert.KernelIdeal.Gen
open Idealize.ShloMosaic Idealize.SL.Sem

variable {F : FTy → Type} [FloatOps F]

-- The three columns a row tile carries along the vocabulary axis: running maximum, running sum of exponentials, selected logit.
abbrev Cols (F : FTy → Type) : Type := Vec F S1024x1 .f32 × Vec F S1024x1 .f32 × Vec F S1024x1 .f32

-- What the first vocabulary tile of a row tile starts from.
def reset0 : Cols F := (k0_pay5 (F := F), k0_pay6 (F := F), k0_pay7 (F := F))

-- One vocabulary tile's update of the carried columns from the row block, the weight block and the id column.
def step0 (i : grid0.Coords) (h : Vec F S1024x1024 .bf16) (w : Vec F S1280x1024 .f32) (ids : Vec F S1024x1 .i32) (s : Cols F) : Cols F :=
  (k0_pay3 (k0_pay10 h w s.1), k0_pay1 (k0_pay11 h w s.1 s.1 s.2.1), k0_pay2 (k0_pay9 i h w ids) s.2.2)

-- What the last vocabulary tile writes out: selected logit minus (maximum plus log of the sum).
def fin0 (s : Cols F) : Vec F S1024 .f32 := k0_pay4 s.2.2 s.1 s.2.1

end Cert.KernelIdeal.Hand

end
-- ==== Proof.KI.Shared0.lean ====
import proofs.«423802_j62801011802684_3_alg».proof.Proof.Gen.KernelIdeal.Launch
import proofs.«423802_j62801011802684_3_alg».proof.Proof.Gen.KernelIdeal.Skeleton
import proofs.«423802_j62801011802684_3_alg».proof.Proof.Gen.KernelIdeal.Points
import proofs.«423802_j62801011802684_3_alg».proof.Proof.KI.LmStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's two conditions in closed form over the grid (point t = 25·i + k): the columns are reset exactly at k = 0,
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

-- and the log-probabilities are written out exactly at k = 24.
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel

theorem noFlush0_3 : ∀ t : Fin cfg0.N, ¬cond0_1 (grid0.coords t) → (cfg0.win 3).flush t = false := by decide +kernel

theorem liveAt0_3 : ∀ t : Fin cfg0.N, cond0_1 (grid0.coords t) → cfg0.idle 3 (grid0.coords t) = false := by decide +kernel

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

-- The part of the core's state the body never touches.
def Rest0 (c : Dev nD) : sProp 𝕄 :=
  Pipeline.scopedRestBut (Ix := Unit) (Name := ℕ) (U := UR sig nD τ) (Lvl := ℕ) (Val := Elt F) spec0 c [cc0_scratch0, cc0_scratch1, cc0_scratch2]

-- The call's invariant with the three columns singled out, each owned at some contents.
theorem PhiA0_eq (c : Dev nD) :
    (Pipeline.ΦA spec0 c : sProp 𝕄)
      = iprop((((∃ d, owns (c : Thread nD τ) scM0_0 fullShare d) ∗ (∃ d, owns (c : Thread nD τ) scM0_1 fullShare d)
          ∗ (∃ d, owns (c : Thread nD τ) scM0_2 fullShare d)) ∗ Rest0 c) ∗ (∃ r, prngReg c r)) := by
  unfold Pipeline.ΦA Rest0
  rw [Pipeline.scopedRest_split_of_list spec0 c [cc0_scratch0, cc0_scratch1, cc0_scratch2] (by decide) (by decide)]
  simp only [scM0_0, scM0_1, scM0_2, owns_whole]; rfl

end Cert.KernelIdeal.Hand

end
-- ==== Proof.KI.Run0.lean ====
import proofs.«423802_j62801011802684_3_alg».proof.Proof.KI.Shared0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a <;> rfl

-- First vocabulary tile: the columns, found at anything, end at the step from the reset values; blocks and output buffer are left as found.
set_option maxHeartbeats 4000000 in
theorem run0_A (c : Dev nD) (E : Set ℕ) (i : grid0.Coords)
    (arg2 : Memref sig .tc .vmem S1024x1024 .bf16) (harg2 : arg2.IsWhole) (arg3 : Memref sig .tc .vmem S1280x1024 .f32) (harg3 : arg3.IsWhole)
    (arg4 : Memref sig .tc .vmem S1024x1 .i32) (harg4 : arg4.IsWhole) (arg5 : Memref sig .tc .vmem S1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : cond0_0 i) (hc1 : ¬cond0_1 i)
    (x0 : Vec F S1024x1024 .bf16) (x1 : Vec F S1280x1024 .f32) (x2 : Vec F S1024x1 .i32) (xo : Vec F S1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (step0 i x0 x1 x2 reset0).1 ∗ owns (c : Thread nD τ) arg7 fullShare (step0 i x0 x1 x2 reset0).2.1 ∗ owns (c : Thread nD τ) arg8 fullShare (step0 i x0 x1 x2 reset0).2.2) -∗ K ⟨⟩))
      ⊢ wp frame (wpE (defs₀ (F := F)) Variants.none c none) E (cc0__lm_head_kernel i arg2 harg2 arg3 harg3 arg4 harg4 arg5 harg5 arg6 harg6 arg7 harg7 arg8 harg8) K := by
  simp only [cc0__lm_head_kernel_eq_skeleton]; unfold cc0__lm_head_kernel_skel
  simp only [k0_part1_eq_skeleton]
  unfold owns
  iintro ⟨⟨%f0, %hf0, H0⟩, ⟨%f1, %hf1, H1⟩, ⟨%f2, %hf2, H2⟩, ⟨%fo, %hfo, Ho⟩, ⟨%d6, %f6, -, H6⟩, ⟨%d7, %f7, -, H7⟩, ⟨%d8, %f8, -, H8⟩, Hk⟩
  subst hf0 hf1 hf2 hfo
  sl_exec (disch := first | exact hc0 | exact hc1)
  sl_step
  iapply Hk
  isplitl [H0]; swap; isplitl [H1]; swap; isplitl [H2]; swap; isplitl [Ho]; swap; isplitl [H6]; swap; isplitl [H7]; swap
  all_goals (iexists _; isplitr; swap; · iassumption
             ipureintro
             first
               | (sl_unfold_words
                  first
                    | rw [View.read_writes_eq_canon _ _ _ (fun y => ⟨_, List.Mem.head _, View.mem_set_unit_zero hz2 inb_S1024x1_S1024x1_0_0 y⟩), View.canon_cons_unit_zero hz2]
                    | rw [View.read_writes_eq_canon _ _ _ (fun y => ⟨_, List.Mem.head _, View.mem_set_unit_zero hz1 inb_S1024_S1024_0 y⟩), View.canon_cons_unit_zero hz1]
                  simp only [step0, reset0, fin0, View.readAt_eq_ld, View.ld_unit_zero (S := S1024x1) hz2, View.ld_unit_zero (S := S1024x1024) hz2, View.ld_unit_zero (S := S1280x1024) hz2, View.ld_unit_zero (S := S1024) hz1, View.readCov_unit_zero (S := S1024x1) _ hz2])
               | rfl)

-- Middle tile: the columns end at the step from what they held; blocks and output buffer are left as found.
set_option maxHeartbeats 4000000 in
theorem run0_B (c : Dev nD) (E : Set ℕ) (i : grid0.Coords)
    (arg2 : Memref sig .tc .vmem S1024x1024 .bf16) (harg2 : arg2.IsWhole) (arg3 : Memref sig .tc .vmem S1280x1024 .f32) (harg3 : arg3.IsWhole)
    (arg4 : Memref sig .tc .vmem S1024x1 .i32) (harg4 : arg4.IsWhole) (arg5 : Memref sig .tc .vmem S1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond0_0 i) (hc1 : ¬cond0_1 i)
    (x0 : Vec F S1024x1024 .bf16) (x1 : Vec F S1280x1024 .f32) (x2 : Vec F S1024x1 .i32) (xo : Vec F S1024 .f32) (xm xl xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ owns (c : Thread nD τ) arg6 fullShare xm ∗ owns (c : Thread nD τ) arg7 fullShare xl ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (step0 i x0 x1 x2 (xm, xl, xs)).1 ∗ owns (c : Thread nD τ) arg7 fullShare (step0 i x0 x1 x2 (xm, xl, xs)).2.1 ∗ owns (c : Thread nD τ) arg8 fullShare (step0 i x0 x1 x2 (xm, xl, xs)).2.2) -∗ K ⟨⟩))
      ⊢ wp frame (wpE (defs₀ (F := F)) Variants.none c none) E (cc0__lm_head_kernel i arg2 harg2 arg3 harg3 arg4 harg4 arg5 harg5 arg6 harg6 arg7 harg7 arg8 harg8) K := by
  simp only [cc0__lm_head_kernel_eq_skeleton]; unfold cc0__lm_head_kernel_skel
  simp only [k0_part1_eq_skeleton]
  unfold owns
  iintro ⟨⟨%f0, %hf0, H0⟩, ⟨%f1, %hf1, H1⟩, ⟨%f2, %hf2, H2⟩, ⟨%fo, %hfo, Ho⟩, ⟨%f6, %hf6, H6⟩, ⟨%f7, %hf7, H7⟩, ⟨%f8, %hf8, H8⟩, Hk⟩
  subst hf0 hf1 hf2 hfo hf6 hf7 hf8
  sl_exec (disch := first | exact hc0 | exact hc1)
  sl_step
  iapply Hk
  isplitl [H0]; swap; isplitl [H1]; swap; isplitl [H2]; swap; isplitl [Ho]; swap; isplitl [H6]; swap; isplitl [H7]; swap
  all_goals (iexists _; isplitr; swap; · iassumption
             ipureintro
             first
               | (sl_unfold_words
                  first
                    | rw [View.read_writes_eq_canon _ _ _ (fun y => ⟨_, List.Mem.head _, View.mem_set_unit_zero hz2 inb_S1024x1_S1024x1_0_0 y⟩), View.canon_cons_unit_zero hz2]
                    | rw [View.read_writes_eq_canon _ _ _ (fun y => ⟨_, List.Mem.head _, View.mem_set_unit_zero hz1 inb_S1024_S1024_0 y⟩), View.canon_cons_unit_zero hz1]
                  simp only [step0, reset0, fin0, View.readAt_eq_ld, View.ld_unit_zero (S := S1024x1) hz2, View.ld_unit_zero (S := S1024x1024) hz2, View.ld_unit_zero (S := S1280x1024) hz2, View.ld_unit_zero (S := S1024) hz1, View.readCov_unit_zero (S := S1024x1) _ hz2])
               | rfl)

-- Last tile: the columns are updated as before and the output buffer, found at anything, ends at the log-probabilities of the updated columns.
set_option maxHeartbeats 4000000 in
theorem run0_C (c : Dev nD) (E : Set ℕ) (i : grid0.Coords)
    (arg2 : Memref sig .tc .vmem S1024x1024 .bf16) (harg2 : arg2.IsWhole) (arg3 : Memref sig .tc .vmem S1280x1024 .f32) (harg3 : arg3.IsWhole)
    (arg4 : Memref sig .tc .vmem S1024x1 .i32) (harg4 : arg4.IsWhole) (arg5 : Memref sig .tc .vmem S1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond0_0 i) (hc1 : cond0_1 i)
    (x0 : Vec F S1024x1024 .bf16) (x1 : Vec F S1280x1024 .f32) (x2 : Vec F S1024x1 .i32) (xm xl xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare xm ∗ owns (c : Thread nD τ) arg7 fullShare xl ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (fin0 (step0 i x0 x1 x2 (xm, xl, xs)))
            ∗ owns (c : Thread nD τ) arg6 fullShare (step0 i x0 x1 x2 (xm, xl, xs)).1 ∗ owns (c : Thread nD τ) arg7 fullShare (step0 i x0 x1 x2 (xm, xl, xs)).2.1 ∗ owns (c : Thread nD τ) arg8 fullShare (step0 i x0 x1 x2 (xm, xl, xs)).2.2) -∗ K ⟨⟩))
      ⊢ wp frame (wpE (defs₀ (F := F)) Variants.none c none) E (cc0__lm_head_kernel i arg2 harg2 arg3 harg3 arg4 harg4 arg5 harg5 arg6 harg6 arg7 harg7 arg8 harg8) K := by
  simp only [cc0__lm_head_kernel_eq_skeleton]; unfold cc0__lm_head_kernel_skel
  simp only [k0_part1_eq_skeleton]
  unfold owns
  iintro ⟨⟨%f0, %hf0, H0⟩, ⟨%f1, %hf1, H1⟩, ⟨%f2, %hf2, H2⟩, ⟨%dout, %fo, -, Ho⟩, ⟨%f6, %hf6, H6⟩, ⟨%f7, %hf7, H7⟩, ⟨%f8, %hf8, H8⟩, Hk⟩
  subst hf0 hf1 hf2 hf6 hf7 hf8
  sl_exec (disch := first | exact hc0 | exact hc1)
  sl_step
  iapply Hk
  isplitl [H0]; swap; isplitl [H1]; swap; isplitl [H2]; swap; isplitl [Ho]; swap; isplitl [H6]; swap; isplitl [H7]; swap
  all_goals (iexists _; isplitr; swap; · iassumption
             ipureintro
             first
               | (sl_unfold_words
                  first
                    | rw [View.read_writes_eq_canon _ _ _ (fun y => ⟨_, List.Mem.head _, View.mem_set_unit_zero hz2 inb_S1024x1_S1024x1_0_0 y⟩), View.canon_cons_unit_zero hz2]
                    | rw [View.read_writes_eq_canon _ _ _ (fun y => ⟨_, List.Mem.head _, View.mem_set_unit_zero hz1 inb_S1024_S1024_0 y⟩), View.canon_cons_unit_zero hz1]
                  simp only [step0, reset0, fin0, View.readAt_eq_ld, View.ld_unit_zero (S := S1024x1) hz2, View.ld_unit_zero (S := S1024x1024) hz2, View.ld_unit_zero (S := S1280x1024) hz2, View.ld_unit_zero (S := S1024) hz1, View.readCov_unit_zero (S := S1024x1) _ hz2])
               | rfl)

end Cert.KernelIdeal.Hand

end
-- ==== Proof.KI.Dat0.lean ====
import proofs.«423802_j62801011802684_3_alg».proof.Proof.KI.Shared0
import proofs.«423802_j62801011802684_3_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

-- Window w's block at point t, read off its array as the call finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

-- The carried columns after grid position n: the step from the reset values at the first tile of a row tile, else from what position n - 1 left.
def scAt0 (c : Dev nD) : (n : ℕ) → n < cfg0.N → Cols F
  | 0, hn => step0 (grid0.coords ⟨0, hn⟩) (iblk0 V c 0 ⟨0, hn⟩) (iblk0 V c 1 ⟨0, hn⟩) (iblk0 V c 2 ⟨0, hn⟩) reset0
  | n + 1, hn =>
    if (n + 1) % 25 = 0 then step0 (grid0.coords ⟨n + 1, hn⟩) (iblk0 V c 0 ⟨n + 1, hn⟩) (iblk0 V c 1 ⟨n + 1, hn⟩) (iblk0 V c 2 ⟨n + 1, hn⟩) reset0
    else step0 (grid0.coords ⟨n + 1, hn⟩) (iblk0 V c 0 ⟨n + 1, hn⟩) (iblk0 V c 1 ⟨n + 1, hn⟩) (iblk0 V c 2 ⟨n + 1, hn⟩) (scAt0 c n (Nat.lt_of_succ_lt hn))

theorem scAt0_first (c : Dev nD) (t : Fin cfg0.N) (h0 : t.val % 25 = 0) :
    scAt0 V c t.val t.isLt = step0 (grid0.coords t) (iblk0 V c 0 t) (iblk0 V c 1 t) (iblk0 V c 2 t) reset0 := by
  obtain ⟨n, hn⟩ := t
  cases n with
  | zero => rfl
  | succ n => exact if_pos h0

theorem scAt0_later (c : Dev nD) (t : Fin cfg0.N) (h0 : ¬t.val % 25 = 0) :
    scAt0 V c t.val t.isLt = step0 (grid0.coords t) (iblk0 V c 0 t) (iblk0 V c 1 t) (iblk0 V c 2 t)
      (scAt0 V c (t.val - 1) (Nat.lt_of_le_of_lt (Nat.sub_le _ _) t.isLt)) := by
  obtain ⟨n, hn⟩ := t
  cases n with
  | zero => exact absurd (Nat.zero_mod _) h0
  | succ n => exact if_neg h0

-- The invariant before position n: the call's own before the first, afterwards the columns at exactly what the position before left.
def PhiS0 (c : Dev nD) : (n : ℕ) → n ≤ cfg0.N → sProp 𝕄
  | 0, _ => Pipeline.ΦA spec0 c
  | n + 1, hn => iprop(((owns (c : Thread nD τ) scM0_0 fullShare (scAt0 V c n hn).1 ∗ owns (c : Thread nD τ) scM0_1 fullShare (scAt0 V c n hn).2.1
      ∗ owns (c : Thread nD τ) scM0_2 fullShare (scAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (scAt0 V c n hn).1 ∗ owns (c : Thread nD τ) scM0_1 fullShare (scAt0 V c n hn).2.1
      ∗ owns (c : Thread nD τ) scM0_2 fullShare (scAt0 V c n hn).2.2) ∗ Rest0 c) ∗ (∃ r, prngReg c r)) := rfl

theorem PhiS0_pos (c : Dev nD) (n : ℕ) (h : n ≤ cfg0.N) (hz : n ≠ 0) :
    PhiS0 V c n h = iprop(((owns (c : Thread nD τ) scM0_0 fullShare (scAt0 V c (n - 1) (by omega)).1 ∗ owns (c : Thread nD τ) scM0_1 fullShare (scAt0 V c (n - 1) (by omega)).2.1
      ∗ owns (c : Thread nD τ) scM0_2 fullShare (scAt0 V c (n - 1) (by omega)).2.2) ∗ Rest0 c) ∗ (∃ r, prngReg c r)) := by
  cases n with
  | zero => exact absurd rfl hz
  | succ n => rfl

-- The call's proof data: inputs keep their blocks, the output block holds the log-probabilities after a row tile's last vocabulary tile.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fin0 (scAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = fin0 (scAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t) := by
  refine ⟨?_, ?_, ?_⟩
  · unfold Dat.leavesExact; rw [liveAt0_0 t, after0_0]
  · unfold Dat.leavesExact; rw [liveAt0_1 t, after0_1]
  · unfold Dat.leavesExact; rw [liveAt0_2 t, after0_2]

-- The body at any point: the position modulo 25 selects one of the three runs; the invariant lends the columns and takes them back updated.
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  obtain ⟨hl0, hl1, hl2⟩ := leaves0_in V c t
  rw [hl0, hl1, hl2]
  have hN : t.val < 50 := lt_of_lt_of_eq t.isLt (show cfg0.N = 50 from N_0)
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1), scAt0_first V c t h0]
    have hΦ : (dat0 V c).Φ t.castSucc ⊢ iprop((((∃ d, owns (c : Thread nD τ) scM0_0 fullShare d) ∗ (∃ d, owns (c : Thread nD τ) scM0_1 fullShare d)
          ∗ (∃ d, owns (c : Thread nD τ) scM0_2 fullShare d)) ∗ Rest0 c) ∗ (∃ r, prngReg c r)) := by
      rw [Phi0_castSucc V c t]
      by_cases hz : t.val = 0
      · rw [PhiS0_zero V c _ _ hz, PhiA0_eq]
      · rw [PhiS0_pos V c _ _ hz]
        iintro ⟨⟨⟨H6, H7, H8⟩, HR⟩, Hg⟩
        isplitr [Hg]
        · isplitr [HR]
          · isplitl [H6]; · iexists _; iexact H6
            isplitl [H7]; · iexists _; iexact H7
            iexists _; iexact H8
          iexact HR
        iexact Hg
    iintro ⟨HΦ, Ho, ⟨%d0, H0⟩, ⟨%d1, H1⟩, ⟨%d2, H2⟩, ⟨%d3, H3⟩⟩
    ihave HΦ' := hΦ $$ HΦ
    icases HΦ' with ⟨⟨⟨H6, H7, H8⟩, HR⟩, Hg⟩
    iapply (run0_A c Set.univ (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk0 V c 0 t) (iblk0 V c 1 t) (iblk0 V c 2 t) _ _)
    isplitl [H0]; · iexact H0
    isplitl [H1]; · iexact H1
    isplitl [H2]; · iexact H2
    isplitl [H3]; · iexact H3
    isplitl [H6]; · iexact H6
    isplitl [H7]; · iexact H7
    isplitl [H8]; · iexact H8
    iintro ⟨H0, H1, H2, H3, H6, H7, H8⟩
    isplitl [H6 H7 H8 HR Hg]
    · isplitr [Hg]
      · isplitr [HR]
        · isplitl [H6]; · iexact H6
          isplitl [H7]; · iexact H7
          iexact H8
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond0_0 (grid0.coords t) := fun h => h0 ((hcond0_0 t).mp h)
    rw [Phi0_castSucc V c t, PhiS0_pos V c _ _ hz, scAt0_later V c t h0]
    by_cases h1 : t.val % 25 = 24
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, scAt0_later V c t h0]
      iintro ⟨⟨⟨⟨H6, H7, H8⟩, HR⟩, Hg⟩, Ho, ⟨%d0, H0⟩, ⟨%d1, H1⟩, ⟨%d2, H2⟩, ⟨%d3, H3⟩⟩
      iapply (run0_C c Set.univ (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk0 V c 0 t) (iblk0 V c 1 t) (iblk0 V c 2 t) _ _ _ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨⟨H6, H7, H8⟩, HR⟩, Hg⟩, Ho, ⟨%d0, H0⟩, ⟨%d1, H1⟩, ⟨%d2, H2⟩, ⟨%d3, H3⟩⟩
      iapply (run0_B c Set.univ (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk0 V c 0 t) (iblk0 V c 1 t) (iblk0 V c 2 t) _ _ _ _ _)
      isplitl [H0]; · iexact H0
      isplitl [H1]; · iexact H1
      isplitl [H2]; · iexact H2
      isplitl [H3]; · iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

-- After the last point the columns' contents are forgotten and the call's invariant is back.
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨⟨H6, H7, H8⟩, HR⟩, Hg⟩
  isplitr [Hg]
  · isplitr [HR]
    · isplitl [H6]; · iexists _; iexact H6
      isplitl [H7]; · iexists _; iexact H7
      iexists _; iexact H8
    iexact HR
  iexact Hg

end R0

end Cert.KernelIdeal.Hand

end
-- ==== Proof.KI.Shared1.lean ====
import proofs.«423802_j62801011802684_3_alg».proof.Proof.Gen.KernelIdeal.Launch
import proofs.«423802_j62801011802684_3_alg».proof.Proof.Gen.KernelIdeal.Skeleton
import proofs.«423802_j62801011802684_3_alg».proof.Proof.Gen.KernelIdeal.Points
import proofs.«423802_j62801011802684_3_alg».proof.Proof.KI.LmStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's two conditions in closed form over the grid (point t = 25·i + k): the columns are reset exactly at k = 0,
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

-- and the log-probabilities are written out exactly at k = 24.
abbrev cond1_1 (i : grid1.Coords) : Prop := k0_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel

theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024 .f32 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

-- The part of the core's state the body never touches.
def Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

-- The call's invariant with the three columns singled out, each owned at some contents.
theorem PhiA1_eq (c : Dev nD) :
    (Pipeline.ΦA spec1 c : sProp 𝕄)
      = iprop((((∃ d, owns (c : Thread nD τ) scM1_0 fullShare d) ∗ (∃ d, owns (c : Thread nD τ) scM1_1 fullShare d)
          ∗ (∃ d, owns (c : Thread nD τ) scM1_2 fullShare d)) ∗ Rest1 c) ∗ (∃ r, prngReg c r)) := by
  unfold Pipeline.ΦA Rest1
  rw [Pipeline.scopedRest_split_of_list spec1 c [cc1_scratch0, cc1_scratch1, cc1_scratch2] (by decide) (by decide)]
  simp only [scM1_0, scM1_1, scM1_2, owns_whole]; rfl

end Cert.KernelIdeal.Hand

end
-- ==== Proof.KI.Dat1.lean ====
import proofs.«423802_j62801011802684_3_alg».proof.Proof.KI.Shared1
import proofs.«423802_j62801011802684_3_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

-- Window w's block at point t, read off its array as the call finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

-- The carried columns after grid position n: the step from the reset values at the first tile of a row tile, else from what position n - 1 left.
def scAt1 (c : Dev nD) : (n : ℕ) → n < cfg1.N → Cols F
  | 0, hn => step0 (grid1.coords ⟨0, hn⟩) (iblk1 V c 0 ⟨0, hn⟩) (iblk1 V c 1 ⟨0, hn⟩) (iblk1 V c 2 ⟨0, hn⟩) reset0
  | n + 1, hn =>
    if (n + 1) % 25 = 0 then step0 (grid1.coords ⟨n + 1, hn⟩) (iblk1 V c 0 ⟨n + 1, hn⟩) (iblk1 V c 1 ⟨n + 1, hn⟩) (iblk1 V c 2 ⟨n + 1, hn⟩) reset0
    else step0 (grid1.coords ⟨n + 1, hn⟩) (iblk1 V c 0 ⟨n + 1, hn⟩) (iblk1 V c 1 ⟨n + 1, hn⟩) (iblk1 V c 2 ⟨n + 1, hn⟩) (scAt1 c n (Nat.lt_of_succ_lt hn))

theorem scAt1_first (c : Dev nD) (t : Fin cfg1.N) (h0 : t.val % 25 = 0) :
    scAt1 V c t.val t.isLt = step0 (grid1.coords t) (iblk1 V c 0 t) (iblk1 V c 1 t) (iblk1 V c 2 t) reset0 := by
  obtain ⟨n, hn⟩ := t
  cases n with
  | zero => rfl
  | succ n => exact if_pos h0

theorem scAt1_later (c : Dev nD) (t : Fin cfg1.N) (h0 : ¬t.val % 25 = 0) :
    scAt1 V c t.val t.isLt = step0 (grid1.coords t) (iblk1 V c 0 t) (iblk1 V c 1 t) (iblk1 V c 2 t)
      (scAt1 V c (t.val - 1) (Nat.lt_of_le_of_lt (Nat.sub_le _ _) t.isLt)) := by
  obtain ⟨n, hn⟩ := t
  cases n with
  | zero => exact absurd (Nat.zero_mod _) h0
  | succ n => exact if_neg h0

-- The invariant before position n: the call's own before the first, afterwards the columns at exactly what the position before left.
def PhiS1 (c : Dev nD) : (n : ℕ) → n ≤ cfg1.N → sProp 𝕄
  | 0, _ => Pipeline.ΦA spec1 c
  | n + 1, hn => iprop(((owns (c : Thread nD τ) scM1_0 fullShare (scAt1 V c n hn).1 ∗ owns (c : Thread nD τ) scM1_1 fullShare (scAt1 V c n hn).2.1
      ∗ owns (c : Thread nD τ) scM1_2 fullShare (scAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (scAt1 V c n hn).1 ∗ owns (c : Thread nD τ) scM1_1 fullShare (scAt1 V c n hn).2.1
      ∗ owns (c : Thread nD τ) scM1_2 fullShare (scAt1 V c n hn).2.2) ∗ Rest1 c) ∗ (∃ r, prngReg c r)) := rfl

theorem PhiS1_pos (c : Dev nD) (n : ℕ) (h : n ≤ cfg1.N) (hz : n ≠ 0) :
    PhiS1 V c n h = iprop(((owns (c : Thread nD τ) scM1_0 fullShare (scAt1 V c (n - 1) (by omega)).1 ∗ owns (c : Thread nD τ) scM1_1 fullShare (scAt1 V c (n - 1) (by omega)).2.1
      ∗ owns (c : Thread nD τ) scM1_2 fullShare (scAt1 V c (n - 1) (by omega)).2.2) ∗ Rest1 c) ∗ (∃ r, prngReg c r)) := by
  cases n with
  | zero => exact absurd rfl hz
  | succ n => rfl

-- The call's proof data: inputs keep their blocks, the output block holds the log-probabilities after a row tile's last vocabulary tile.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin0 (scAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin0 (scAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

-- The body at any point: the position modulo 25 selects one of the three runs; the invariant lends the columns and takes them back updated.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2⟩ := leaves1_in V c t
  rw [hl0, hl1, hl2]
  have hN : t.val < 50 := lt_of_lt_of_eq t.isLt (show cfg1.N = 50 from N_1)
  by_cases h0 : t.val % 25 = 0
  · have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1), scAt1_first V c t h0]
    have hΦ : (dat1 V c).Φ t.castSucc ⊢ iprop((((∃ d, owns (c : Thread nD τ) scM1_0 fullShare d) ∗ (∃ d, owns (c : Thread nD τ) scM1_1 fullShare d)
          ∗ (∃ d, owns (c : Thread nD τ) scM1_2 fullShare d)) ∗ Rest1 c) ∗ (∃ r, prngReg c r)) := by
      rw [Phi1_castSucc V c t]
      by_cases hz : t.val = 0
      · rw [PhiS1_zero V c _ _ hz, PhiA1_eq]
      · rw [PhiS1_pos V c _ _ hz]
        iintro ⟨⟨⟨H6, H7, H8⟩, HR⟩, Hg⟩
        isplitr [Hg]
        · isplitr [HR]
          · isplitl [H6]; · iexists _; iexact H6
            isplitl [H7]; · iexists _; iexact H7
            iexists _; iexact H8
          iexact HR
        iexact Hg
    iintro ⟨HΦ, Ho, ⟨%d0, H0⟩, ⟨%d1, H1⟩, ⟨%d2, H2⟩, ⟨%d3, H3⟩⟩
    ihave HΦ' := hΦ $$ HΦ
    icases HΦ' with ⟨⟨⟨H6, H7, H8⟩, HR⟩, Hg⟩
    iapply (run0_A c Set.univ (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [H6]; · iexact H6
    isplitl [H7]; · iexact H7
    isplitl [H8]; · iexact H8
    iintro ⟨H0, H1, H2, H3, H6, H7, H8⟩
    isplitl [H6 H7 H8 HR Hg]
    · isplitr [Hg]
      · isplitr [HR]
        · isplitl [H6]; · iexact H6
          isplitl [H7]; · iexact H7
          iexact H8
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond1_0 (grid1.coords t) := fun h => h0 ((hcond1_0 t).mp h)
    rw [Phi1_castSucc V c t, PhiS1_pos V c _ _ hz, scAt1_later V c t h0]
    by_cases h1 : t.val % 25 = 24
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, scAt1_later V c t h0]
      iintro ⟨⟨⟨⟨H6, H7, H8⟩, HR⟩, Hg⟩, Ho, ⟨%d0, H0⟩, ⟨%d1, H1⟩, ⟨%d2, H2⟩, ⟨%d3, H3⟩⟩
      iapply (run0_C c Set.univ (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨⟨H6, H7, H8⟩, HR⟩, Hg⟩, Ho, ⟨%d0, H0⟩, ⟨%d1, H1⟩, ⟨%d2, H2⟩, ⟨%d3, H3⟩⟩
      iapply (run0_B c Set.univ (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H6]; · iexact H6
      isplitl [H7]; · iexact H7
      isplitl [H8]; · iexact H8
      iintro ⟨H0, H1, H2, H3, H6, H7, H8⟩
      isplitl [H6 H7 H8 HR Hg]
      · isplitr [Hg]
        · isplitr [HR]
          · isplitl [H6]; · iexact H6
            isplitl [H7]; · iexact H7
            iexact H8
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

-- After the last point the columns' contents are forgotten and the call's invariant is back.
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨⟨⟨H6, H7, H8⟩, HR⟩, Hg⟩
  isplitr [Hg]
  · isplitr [HR]
    · isplitl [H6]; · iexists _; iexact H6
      isplitl [H7]; · iexists _; iexact H7
      iexists _; iexact H8
    iexact HR
  iexact Hg

end R1

end Cert.KernelIdeal.Hand

end
-- ==== Proof.KI.Ep.lean ====
import proofs.«423802_j62801011802684_3_alg».proof.Proof.Gen.KernelIdeal.Launch
import proofs.«423802_j62801011802684_3_alg».proof.Proof.Gen.KernelIdeal.Skeleton
import proofs.«423802_j62801011802684_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S4x512 := Rect.unit (s := S4x512) ![0, 0] S4x512.size inb_S4x512_S4x512_0_0
abbrev r2_2 : Rect S4x1 := Rect.unit (s := S4x1) ![0, 0] S4x1.size inb_S4x1_S4x1_0_0
abbrev r2_4 : Rect S1x1 := Rect.unit (s := S1x1) ![0, 0] S1x1.size inb_S1x1_S1x1_0_0

def out2_4 (x0 x1 : Vec F S4x512 .f32) (x2 : Vec F S4x1 .f32) (x3 : Vec F S4x512 .i32) : Vec F S1x1 .f32 :=
  View.canon [⟨r2_4, k2_pay1 (View.ld x0 r2_0) (View.ld x1 r2_0) (View.ld x2 r2_2) (View.ld x3 r2_0)⟩]

theorem cover2_4 (p0 : Vec F S1x1 .f32) (y : S1x1.Idx) :
    ∃ pc ∈ ([⟨r2_4, p0⟩] : List (View.Piece (Elt F) S1x1 .f32)), y ∈ pc.1.set :=
  View.cover_of_tiled [⟨r2_4, p0⟩] S1x1.size (by rfl) y

set_option maxHeartbeats 1000000 in
theorem sound_kernel2 (c : Dev nD) (E : Set ℕ) (i : grid2.Coords)
    (arg1 : Memref sig .tc .vmem S4x512 .f32) (harg1 : arg1.IsWhole) (arg2 : Memref sig .tc .vmem S4x512 .f32) (harg2 : arg2.IsWhole)
    (arg3 : Memref sig .tc .vmem S4x1 .f32) (harg3 : arg3.IsWhole) (arg4 : Memref sig .tc .vmem S4x512 .i32) (harg4 : arg4.IsWhole)
    (arg5 : Memref sig .tc .vmem S1x1 .f32) (harg5 : arg5.IsWhole)
    (x0 x1 : Vec F S4x512 .f32) (x2 : Vec F S4x1 .f32) (x3 : Vec F S4x512 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__grpo_epilogue_kernel i arg1 harg1 arg2 harg2 arg3 harg3 arg4 harg4 arg5 harg5) K := by
  simp only [cc2__grpo_epilogue_kernel_eq_skeleton]; unfold cc2__grpo_epilogue_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.MainRun.lean ====
import proofs.«423802_j62801011802684_3_alg».proof.Proof.KI.Dat0
import proofs.«423802_j62801011802684_3_alg».proof.Proof.KI.Dat1
import proofs.«423802_j62801011802684_3_alg».proof.Proof.KI.Ep
import proofs.«423802_j62801011802684_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps3 (W8 m ρ c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

abbrev toV (W : Dev nD → Valuation τ sig (Elt F)) : (c : Dev nD) → (b : Ref sig .tc) → Buf (Elt F) ((c : Thread nD τ).loc b) :=
  fun c b => W c b

set_option backward.isDefEq.respectTransparency.types false in
/-- A kernel region between the held valuations Wb and Wa: its arrays are split out of Wb on entry and put back at Wa on exit. -/
def mkReg (p : Fin 3) (launch : Pipeline.LaunchFacts (nD := nD) (τ := τ) cfgs p) (Wb Wa : Dev nD → Valuation τ sig (Elt F))
    (hbody : ∀ c, Pipeline.BodyObligationLoose (pdats m ρ p c) defs₀ 𝒱₀ () Set.univ)
    (howed : ∀ c t, (pdats m ρ p c).owed t = 0)
    (hq : ∀ c w, (pdats m ρ p c).q w = fullShare) (hrec : ∀ c, (pdats m ρ p c).recorded 0 = Set.univ)
    (hA : ∀ c w, (pdats m ρ p c).A w = toV Wb c (Pipeline.arrRef (Pipeline.pin (pcfgs (F := F)) adm p).spec w))
    (hΦ0 : ∀ c, (pdats m ρ p c).Φ 0 = Pipeline.ΦA (Pipeline.pin (pcfgs (F := F)) adm p).spec c)
    (hΦN : ∀ c, (pdats m ρ p c).Φ (Fin.last _) ⊢ Pipeline.ΦA (Pipeline.pin (pcfgs (F := F)) adm p).spec c)
    (hWa : ∀ c, Wa c = Pipeline.withArrays (Pipeline.pin (pcfgs (F := F)) adm p).spec c (Wb c) fun w => (pdats m ρ p c).arrAt w (Pipeline.pin (pcfgs (F := F)) adm p).N) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wb c) ∗ R c)
  post c := iprop(StableHlo.held (c : Thread nD τ) (Pipeline.ucRefs τ sig) (Wa c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (toV Wb c)
  hentry c := by
    rw [Pipeline.ownSems0_none]
    have hsplit := Pipeline.arrays_of_unscopedBufs (p := p) (pcfgs (F := F)) adm (pdats m ρ) launch.win launch.arr_whole c
      ((pdats m ρ p c).share_full (hq c)) (toV Wb c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (toV Wb c) (toV Wa c) ((pdats m ρ p c).arrAt · (Pipeline.pin (pcfgs (F := F)) adm p).N)
      (fun w => by
        have h := Pipeline.withArrays_arr (Pipeline.pin (pcfgs (F := F)) adm p).spec launch.win.arr_inj c (Wb c) (fun w => (pdats m ρ p c).arrAt w (Pipeline.pin (pcfgs (F := F)) adm p).N) w
        rw [← hWa c] at h
        exact h.symm)
      (fun b hb => by
        show Wa c _ = Wb c _
        rw [hWa c]
        exact Pipeline.withArrays_of_ne (Pipeline.pin (pcfgs (F := F)) adm p).spec c (Wb c) _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) adm (pdats m ρ) () defs₀ 𝒱₀ L lv 0 :=
  mkReg m ρ 0 launch0 (W3 m ρ) (W4 m ρ) (fun c => (body_obligation0 (V3 m ρ) c).loose) (fun _ _ => rfl) (fun _ _ => rfl) (fun _ => rfl) (fun _ _ => rfl)
    (fun _ => rfl) (hout0 (V3 m ρ)) (fun _ => rfl)

set_option backward.isDefEq.respectTransparency.types false in
def reg1 : Pipeline.RegionSeg (pcfgs (F := F)) adm (pdats m ρ) () defs₀ 𝒱₀ L lv 1 :=
  mkReg m ρ 1 launch1 (W5 m ρ) (W6 m ρ) (fun c => (body_obligation1 (V5 m ρ) c).loose) (fun _ _ => rfl) (fun _ _ => rfl) (fun _ => rfl) (fun _ _ => rfl)
    (fun _ => rfl) (hout1 (V5 m ρ)) (fun _ => rfl)

set_option backward.isDefEq.respectTransparency.types false in
def reg2 : Pipeline.RegionSeg (pcfgs (F := F)) adm (pdats m ρ) () defs₀ 𝒱₀ L lv 2 :=
  mkReg m ρ 2 launch2 (W7 m ρ) (W8 m ρ) (fun c => (body_obligation2 (V7 m ρ) c).loose) (fun _ _ => rfl) (fun _ _ => rfl) (fun _ => rfl) (fun _ _ => rfl)
    (fun _ => rfl) (fun _ => .rfl) (fun _ => rfl)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.KI.Frame.lean ====
import proofs.«423802_j62801011802684_3_alg».proof.Proof.KI.MainRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem in4_1 (c : Dev nD) : W4 m ρ c (Proc.devRef .tc main_arg5) = W3 m ρ c (Proc.devRef .tc main_arg5) :=
  (W4_arr m ρ c 1).trans (((dat0 (V3 m ρ) c).arrAt_in 1 rfl _).trans (A_eq0 (V3 m ρ) c 1))
theorem in4_2 (c : Dev nD) : W4 m ρ c (Proc.devRef .tc main_v1) = W3 m ρ c (Proc.devRef .tc main_v1) :=
  (W4_arr m ρ c 2).trans (((dat0 (V3 m ρ) c).arrAt_in 2 rfl _).trans (A_eq0 (V3 m ρ) c 2))
theorem in6_1 (c : Dev nD) : W6 m ρ c (Proc.devRef .tc main_arg6) = W5 m ρ c (Proc.devRef .tc main_arg6) :=
  (W6_arr m ρ c 1).trans (((dat1 (V5 m ρ) c).arrAt_in 1 rfl _).trans (A_eq1 (V5 m ρ) c 1))
theorem in8_3 (c : Dev nD) : W8 m ρ c (Proc.devRef .tc main_arg2) = W7 m ρ c (Proc.devRef .tc main_arg2) :=
  (W8_arr m ρ c 3).trans (((dat2 (V7 m ρ) c).arrAt_in 3 rfl _).trans (A_eq2 (V7 m ρ) c 3))

/-- A buffer no host stretch writes and every region leaves as it found it ends as launched. -/
theorem W9_keep (c : Dev nD) (b : Ref sig .tc) (h0 : b ∉ hostOps0_W) (h1 : b ∉ hostOps0_1_W) (h2 : b ∉ hostOps0_2_W)
    (h4 : W4 m ρ c (Proc.devRef .tc b) = W3 m ρ c (Proc.devRef .tc b)) (h5 : b ∉ hostOps1_W)
    (h6 : W6 m ρ c (Proc.devRef .tc b) = W5 m ρ c (Proc.devRef .tc b)) (h7 : b ∉ hostOps2_W)
    (h8 : W8 m ρ c (Proc.devRef .tc b) = W7 m ρ c (Proc.devRef .tc b)) (h9 : b ∉ hostOps3_W) :
    W9 m ρ c (Proc.devRef .tc b) = m ((c : Thread nD τ).loc b) :=
  (StableHlo.after_of_writes_sub hostOps3 _ hostOps3_writes h9).trans <| h8.trans <|
  (StableHlo.after_of_writes_sub hostOps2 _ hostOps2_writes h7).trans <| h6.trans <|
  (StableHlo.after_of_writes_sub hostOps1 _ hostOps1_writes h5).trans <| h4.trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W9_main_arg0 (c : Dev nD) : W9 m ρ c (Proc.devRef .tc main_arg0) = m ((c : Thread nD τ).loc main_arg0) :=
  W9_keep m ρ c main_arg0 (by decide) (by decide) (by decide) (W4_of_ne m ρ c main_arg0 (by decide)) (by decide) (W6_of_ne m ρ c main_arg0 (by decide)) (by decide)
    (W8_of_ne m ρ c main_arg0 (by decide)) (by decide)
theorem W9_main_arg1 (c : Dev nD) : W9 m ρ c (Proc.devRef .tc main_arg1) = m ((c : Thread nD τ).loc main_arg1) :=
  W9_keep m ρ c main_arg1 (by decide) (by decide) (by decide) (W4_of_ne m ρ c main_arg1 (by decide)) (by decide) (W6_of_ne m ρ c main_arg1 (by decide)) (by decide)
    (W8_of_ne m ρ c main_arg1 (by decide)) (by decide)
theorem W9_main_arg2 (c : Dev nD) : W9 m ρ c (Proc.devRef .tc main_arg2) = m ((c : Thread nD τ).loc main_arg2) :=
  W9_keep m ρ c main_arg2 (by decide) (by decide) (by decide) (W4_of_ne m ρ c main_arg2 (by decide)) (by decide) (W6_of_ne m ρ c main_arg2 (by decide)) (by decide)
    (in8_3 m ρ c) (by decide)
theorem W9_main_arg3 (c : Dev nD) : W9 m ρ c (Proc.devRef .tc main_arg3) = m ((c : Thread nD τ).loc main_arg3) :=
  W9_keep m ρ c main_arg3 (by decide) (by decide) (by decide) (W4_of_ne m ρ c main_arg3 (by decide)) (by decide) (W6_of_ne m ρ c main_arg3 (by decide)) (by decide)
    (W8_of_ne m ρ c main_arg3 (by decide)) (by decide)
theorem W9_main_arg4 (c : Dev nD) : W9 m ρ c (Proc.devRef .tc main_arg4) = m ((c : Thread nD τ).loc main_arg4) :=
  W9_keep m ρ c main_arg4 (by decide) (by decide) (by decide) (W4_of_ne m ρ c main_arg4 (by decide)) (by decide) (W6_of_ne m ρ c main_arg4 (by decide)) (by decide)
    (W8_of_ne m ρ c main_arg4 (by decide)) (by decide)
theorem W9_main_arg5 (c : Dev nD) : W9 m ρ c (Proc.devRef .tc main_arg5) = m ((c : Thread nD τ).loc main_arg5) :=
  W9_keep m ρ c main_arg5 (by decide) (by decide) (by decide) (in4_1 m ρ c) (by decide) (W6_of_ne m ρ c main_arg5 (by decide)) (by decide)
    (W8_of_ne m ρ c main_arg5 (by decide)) (by decide)
theorem W9_main_arg6 (c : Dev nD) : W9 m ρ c (Proc.devRef .tc main_arg6) = m ((c : Thread nD τ).loc main_arg6) :=
  W9_keep m ρ c main_arg6 (by decide) (by decide) (by decide) (W4_of_ne m ρ c main_arg6 (by decide)) (by decide) (in6_1 m ρ c) (by decide)
    (W8_of_ne m ρ c main_arg6 (by decide)) (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩) (run_all m ρ)

end Cert.KernelIdeal.Hand

end
-- ==== Proof.KI.HostVals.lean ====
import proofs.«423802_j62801011802684_3_alg».proof.Proof.KI.Frame
import Idealize.ShloMosaic.Lib.Pipeline.Value
import Idealize.ShloMosaic.Lib.ValueIdx
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

def rowB (n : Fin 2048) : Fin 4 := ⟨n.val / 512, by have := n.isLt; omega⟩
def rowT (n : Fin 2048) : Fin 512 := ⟨n.val % 512, Nat.mod_lt _ (by decide)⟩

def flat (b : Fin 4) (t : Fin 512) : Fin 2048 := ⟨512 * b.val + t.val, by have := b.isLt; have := t.isLt; omega⟩
theorem rowB_flat (b : Fin 4) (t : Fin 512) : rowB (flat b t) = b := Fin.ext (by have := t.isLt; show (512 * b.val + t.val) / 512 = b.val; omega)
theorem rowT_flat (b : Fin 4) (t : Fin 512) : rowT (flat b t) = t := Fin.ext (by have := t.isLt; show (512 * b.val + t.val) % 512 = t.val; omega)

theorem clip_id (k : ℕ) (hk : k < 32000) : IntOp.minsi 31999#32 (IntOp.maxsi 0#32 (BitVec.ofNat 32 k)) = BitVec.ofNat 32 k := by
  have hw : (BitVec.ofNat 32 k).toNat = k := by simp only [BitVec.toNat_ofNat]; omega
  have hti : (BitVec.ofNat 32 k).toInt = k := by rw [StableHlo.Predicate.toInt_eq_toNat_of_lt (by omega), hw]
  have h0 : (0#32 : BitVec 32).toInt = 0 := by decide
  have hhi : (31999#32 : BitVec 32).toInt = 31999 := by decide
  have hmax : IntOp.maxsi 0#32 (BitVec.ofNat 32 k) = BitVec.ofNat 32 k := by
    unfold IntOp.maxsi
    split <;> rename_i hc <;> simp only [BitVec.slt, hti, h0, decide_eq_true_eq] at hc
    · exfalso; omega
    · rfl
  rw [hmax]; unfold IntOp.minsi
  split <;> rename_i hc <;> simp only [BitVec.slt, hti, hhi, decide_eq_true_eq] at hc
  · exfalso; omega
  · rfl

-- Merging batch and position into one row axis, and narrowing the format (the identity on extended reals), keeps every element.
theorem rows_at (x : S4x512x1024.Idx → EReal) (n : Fin 2048) (j : Fin 1024) :
    truncf (F := Ideal) .bf16 (shapeCast S2048x1024 x shapeCasts_S4x512x1024_S2048x1024) bitsLt_bf16_f32 (ix2 n j) = x (ix3 (rowB n) (rowT n) j) := by
  rw [truncf_apply]
  refine shapeCast_apply _ _ _ _ ?_
  show (S4x512x1024.rowMajor (ix3 (rowB n) (rowT n) j)).val = (S2048x1024.rowMajor (ix2 n j)).val
  rw [Shape.rowMajor_val_three, Shape.rowMajor_val_two]
  show ((n.val / 512) * 512 + n.val % 512) * 1024 + j.val = n.val * 1024 + j.val
  omega

-- Splitting the row axis back into batch and position reads the flat array at the flat index.
theorem unflat_at {α : Type} (x : S2048.Idx → α) (b : Fin 4) (t : Fin 512) :
    shapeCast S4x512 x shapeCasts_S2048_S4x512 (ix2 b t) = x (ix1 (flat b t)) := by
  refine shapeCast_apply _ _ _ _ ?_
  show (S2048.rowMajor (ix1 (flat b t))).val = (S4x512.rowMajor (ix2 b t)).val
  rw [Shape.rowMajor_val_one, Shape.rowMajor_val_two]
  show 512 * b.val + t.val = b.val * 512 + t.val
  omega

variable (m : (ℓ : Loc nD τ sig) → Buf (Elt Ideal) ℓ) (ρ : Dev nD → PrngReg)

-- An array that none of the first three host stretches writes still holds its input.
theorem V3_keep (c : Dev nD) (r : Ref sig .tc) (h0 : r ∉ hostOps0_W) (h1 : r ∉ hostOps0_1_W) (h2 : r ∉ hostOps0_2_W) :
    V3 m ρ c r = m ((c : Thread nD τ).loc r) :=
  (StableHlo.after_of_writes_sub hostOps0_2 _ hostOps0_2_writes h2).trans <| (StableHlo.after_of_writes_sub hostOps0_1 _ hostOps0_1_writes h1).trans <|
    (StableHlo.after_of_writes_sub hostOps0 _ hostOps0_writes h0).trans rfl

-- An array that neither the first kernel nor the host stretch after it writes is unchanged across them.
theorem V5_keep (c : Dev nD) (r : Ref sig .tc) (h : r ∉ hostOps1_W) (hw : ∀ w : Fin 4, Pipeline.arrRef spec0 w ≠ r) :
    V5 m ρ c r = V3 m ρ c r :=
  (StableHlo.after_of_writes_sub hostOps1 _ hostOps1_writes h).trans (W4_of_ne m ρ c r hw)

-- Likewise across the second kernel and the host stretch after it.
theorem V7_keep (c : Dev nD) (r : Ref sig .tc) (h : r ∉ hostOps2_W) (hw : ∀ w : Fin 4, Pipeline.arrRef spec1 w ≠ r) :
    V7 m ρ c r = V5 m ρ c r :=
  (StableHlo.after_of_writes_sub hostOps2 _ hostOps2_writes h).trans (W6_of_ne m ρ c r hw)

theorem V3_v3_at (c : Dev nD) (n : Fin 2048) (j : Fin 1024) :
    V3 m ρ c main_v3 (ix2 n j) = m ((c : Thread nD τ).loc main_arg0) (ix3 (rowB n) (rowT n) j) := by
  have e : (V3 m ρ c main_v3 : S2048x1024.Idx → EReal) = truncf (F := Ideal) .bf16 (shapeCast S2048x1024 (m ((c : Thread nD τ).loc main_arg0)) shapeCasts_S4x512x1024_S2048x1024) bitsLt_bf16_f32 := by
    show StableHlo.after hostOps0_2 (StableHlo.after hostOps0_1 (StableHlo.after hostOps0 (W0 m ρ c))) (Proc.devRef .tc main_v3) = _
    after_results; rfl
  rw [e]; exact rows_at _ n j

theorem V3_arg5 (c : Dev nD) : V3 m ρ c main_arg5 = m ((c : Thread nD τ).loc main_arg5) :=
  V3_keep m ρ c _ (by decide) (by decide) (by decide)

theorem V3_v1_at (c : Dev nD) (ids : Fin 4 → Fin 512 → Fin 32000)
    (hids : ∀ b t, m ((c : Thread nD τ).loc main_arg1) (ix2 b t) = BitVec.ofNat 32 (ids b t).val) (n : Fin 2048) :
    V3 m ρ c main_v1 (ix2 n (0 : Fin 1)) = BitVec.ofNat 32 (ids (rowB n) (rowT n)).val := by
  have e : V3 m ρ c main_v1 = shapeCast S2048x1 (minsi (broadcastInDim S4x512 ![] bcast_S_S4x512 (constantI S_ 32 31999#32))
      (maxsi (broadcastInDim S4x512 ![] bcast_S_S4x512 (constantI S_ 32 0#32)) (m ((c : Thread nD τ).loc main_arg1)))) shapeCasts_S4x512_S2048x1 := by
    show StableHlo.after hostOps0_2 (StableHlo.after hostOps0_1 (StableHlo.after hostOps0 (W0 m ρ c))) (Proc.devRef .tc main_v1) = _
    after_results
    simp only [StableHlo.TRef.ofBuf, StableHlo.TRef.toBuf, cast_eq, id]
    rfl
  rw [e, shapeCast_apply _ _ (ix2 n (0 : Fin 1)) (ix2 (rowB n) (rowT n)) (by
    rw [Shape.rowMajor_val_two, Shape.rowMajor_val_two]
    show (n.val / 512) * 512 + n.val % 512 = n.val * 1 + 0
    omega)]
  show IntOp.minsi 31999#32 (IntOp.maxsi 0#32 (m ((c : Thread nD τ).loc main_arg1) (ix2 (rowB n) (rowT n)))) = _
  rw [hids]; exact clip_id _ (ids _ _).isLt

theorem V5_v5_at (c : Dev nD) (n : Fin 2048) (j : Fin 1024) :
    V5 m ρ c main_v5 (ix2 n j) = m ((c : Thread nD τ).loc main_arg4) (ix3 (rowB n) (rowT n) j) := by
  have e : (V5 m ρ c main_v5 : S2048x1024.Idx → EReal) = truncf (F := Ideal) .bf16 (shapeCast S2048x1024 (m ((c : Thread nD τ).loc main_arg4)) shapeCasts_S4x512x1024_S2048x1024) bitsLt_bf16_f32 := by
    refine (V5_keep m ρ c _ (by decide) (by decide)).trans ?_
    show StableHlo.after hostOps0_2 (StableHlo.after hostOps0_1 (StableHlo.after hostOps0 (W0 m ρ c))) (Proc.devRef .tc main_v5) = _
    after_results; rfl
  rw [e]; exact rows_at _ n j

theorem V5_arg6 (c : Dev nD) : V5 m ρ c main_arg6 = m ((c : Thread nD τ).loc main_arg6) :=
  (V5_keep m ρ c _ (by decide) (by decide)).trans (V3_keep m ρ c _ (by decide) (by decide) (by decide))

theorem V5_v1 (c : Dev nD) : V5 m ρ c main_v1 = V3 m ρ c main_v1 :=
  (StableHlo.after_of_writes_sub hostOps1 _ hostOps1_writes (by decide)).trans (in4_2 m ρ c)

theorem V7_v7_at (c : Dev nD) (b : Fin 4) (t : Fin 512) :
    V7 m ρ c main_v7 (ix2 b t) = (dat0 (V3 m ρ) c).arrAt 3 cfg0.N (ix1 (flat b t)) := by
  have e : V7 m ρ c main_v7 = shapeCast S4x512 ((dat0 (V3 m ρ) c).arrAt 3 cfg0.N) shapeCasts_S2048_S4x512 := by
    refine (V7_keep m ρ c _ (by decide) (by decide)).trans ?_
    show StableHlo.after hostOps1 (W4 m ρ c) (Proc.devRef .tc main_v7) = _
    after_results
    rw [W4_arr m ρ c 3]; rfl
  rw [e]; exact unflat_at _ b t

theorem V7_v9_at (c : Dev nD) (b : Fin 4) (t : Fin 512) :
    V7 m ρ c main_v9 (ix2 b t) = (dat1 (V5 m ρ) c).arrAt 3 cfg1.N (ix1 (flat b t)) := by
  have e : V7 m ρ c main_v9 = shapeCast S4x512 ((dat1 (V5 m ρ) c).arrAt 3 cfg1.N) shapeCasts_S2048_S4x512 := by
    show StableHlo.after hostOps2 (W6 m ρ c) (Proc.devRef .tc main_v9) = _
    after_results
    rw [W6_arr m ρ c 3]; rfl
  rw [e]; exact unflat_at _ b t

theorem W6_arg3 (c : Dev nD) : W6 m ρ c (Proc.devRef .tc main_arg3) = m ((c : Thread nD τ).loc main_arg3) :=
  (W6_of_ne m ρ c _ (by decide)).trans <| (V5_keep m ρ c _ (by decide) (by decide)).trans (V3_keep m ρ c _ (by decide) (by decide) (by decide))

theorem V7_v10_at (c : Dev nD) (b : Fin 4) :
    V7 m ρ c main_v10 (ix2 b (0 : Fin 1)) = m ((c : Thread nD τ).loc main_arg3) (ix1 b) := by
  have e : V7 m ρ c main_v10 = shapeCast S4x1 (m ((c : Thread nD τ).loc main_arg3)) shapeCasts_S4_S4x1 := by
    show StableHlo.after hostOps2 (W6 m ρ c) (Proc.devRef .tc main_v10) = _
    after_results
    rw [W6_arg3 m ρ c]; rfl
  rw [e]
  refine shapeCast_apply _ _ _ _ ?_
  show (S4.rowMajor (ix1 b)).val = (S4x1.rowMajor (ix2 b (0 : Fin 1))).val
  rw [Shape.rowMajor_val_one, Shape.rowMajor_val_two]
  show b.val = b.val * 1 + 0
  omega

theorem V7_arg2 (c : Dev nD) : V7 m ρ c main_arg2 = m ((c : Thread nD τ).loc main_arg2) :=
  (V7_keep m ρ c _ (by decide) (by decide)).trans <| (V5_keep m ρ c _ (by decide) (by decide)).trans (V3_keep m ρ c _ (by decide) (by decide) (by decide))

theorem W9_v12_at (c : Dev nD) :
    W9 m ρ c (Proc.devRef .tc main_v12) ix0 = (dat2 (V7 m ρ) c).arrAt 4 cfg2.N (ix2 (0 : Fin 1) (0 : Fin 1)) := by
  have e : W9 m ρ c (Proc.devRef .tc main_v12) = shapeCast S_ ((dat2 (V7 m ρ) c).arrAt 4 cfg2.N) shapeCasts_S1x1_S_ := by
    show StableHlo.after hostOps3 (W8 m ρ c) (Proc.devRef .tc main_v12) = _
    after_results
    rw [W8_arr m ρ c 4]; rfl
  rw [e]
  refine shapeCast_apply _ _ _ _ ?_
  show (S1x1.rowMajor (ix2 (0 : Fin 1) (0 : Fin 1))).val = (S_.rowMajor ix0).val
  rw [Shape.rowMajor_val_two]
  have h := (S_.rowMajor ix0).isLt
  show 0 * 1 + 0 = (S_.rowMajor ix0).val
  have h1 : S_.numel = 1 := by decide
  omega

end Cert.KernelIdeal.Hand

end
-- ==== Proof.Spec.lean ====
import Idealize.ShloMosaic.PureOps.Ideal
import Mathlib.Analysis.SpecialFunctions.Log.Basic
import Mathlib.Analysis.SpecialFunctions.Exp
import Mathlib.Algebra.BigOperators.Field

noncomputable section

namespace Cert.Spec

open Idealize.ShloMosaic

def logitR (xr : Fin 4 → Fin 512 → Fin 1024 → ℝ) (Wr : Fin 32000 → Fin 1024 → ℝ) (b : Fin 4) (t : Fin 512) (v : Fin 32000) : ℝ :=
  ∑ j : Fin 1024, xr b t j * Wr v j

def lpR (xr : Fin 4 → Fin 512 → Fin 1024 → ℝ) (Wr : Fin 32000 → Fin 1024 → ℝ) (ids : Fin 4 → Fin 512 → Fin 32000)
    (b : Fin 4) (t : Fin 512) : ℝ :=
  logitR xr Wr b t (ids b t) - Real.log (∑ v : Fin 32000, Real.exp (logitR xr Wr b t v))

theorem lse_shift {ι : Type*} (s : Finset ι) (hs : s.Nonempty) (y : ι → ℝ) (a : ℝ) :
    a + Real.log (∑ i ∈ s, Real.exp (y i - a)) = Real.log (∑ i ∈ s, Real.exp (y i)) := by
  have hpos : 0 < ∑ i ∈ s, Real.exp (y i) := Finset.sum_pos (fun i _ => Real.exp_pos _) hs
  have h : ∑ i ∈ s, Real.exp (y i - a) = (∑ i ∈ s, Real.exp (y i)) / Real.exp a := by
    rw [Finset.sum_div]; exact Finset.sum_congr rfl fun i _ => Real.exp_sub _ _
  rw [h, Real.log_div hpos.ne' (Real.exp_pos a).ne', Real.log_exp]; ring

def lossE (lp rlp : Fin 4 → Fin 512 → EReal) (adv : Fin 4 → EReal) (mk : Fin 4 → Fin 512 → EReal) : EReal :=
  let c08 : EReal := Ideal.ofBits .f32 0x3F4CCCCD#32
  let c12 : EReal := Ideal.ofBits .f32 0x3F99999A#32
  let one : EReal := Ideal.ofBits .f32 0x3F800000#32
  let beta : EReal := Ideal.ofBits .f32 0x3DCCCCCD#32
  let tok : Fin 4 → Fin 512 → EReal := fun b t =>
    let e := Ideal.exp (lp b t - lp b t)
    let d := rlp b t - lp b t
    (-(min (e * adv b) (min c12 (max c08 e) * adv b)) + beta * ((Ideal.exp d - d) - one)) * mk b t
  Ideal.div (∑ b : Fin 4, ∑ t : Fin 512, tok b t) (max (∑ b : Fin 4, ∑ t : Fin 512, mk b t) one)

end Cert.Spec

end
-- ==== Proof.KI.LmValue.lean ====
import proofs.«423802_j62801011802684_3_alg».proof.Proof.KI.LmStep
import proofs.«423802_j62801011802684_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Analysis.SpecialFunctions.Log.Basic
import Mathlib.Analysis.SpecialFunctions.Exp
import Mathlib.Algebra.BigOperators.Field
import Mathlib.Algebra.BigOperators.Intervals
import Mathlib.Algebra.BigOperators.Fin
import Mathlib.Data.EReal.Basic
import Mathlib.Data.EReal.Operations

set_option maxRecDepth 16384

noncomputable section

namespace Cert.KernelIdeal.Hand.Lm0

open Cert.KernelIdeal Cert.KernelIdeal.Gen
open Idealize.ShloMosaic Idealize.SL.Sem Idealize.ShloMosaic.ValueIdx
open scoped BigOperators

/-- The logit block at (r, q) is the hidden row r against the weight row q. -/
theorem pay8_apply (h : Vec Ideal S1024x1024 .bf16) (w : Vec Ideal S1280x1024 .f32) (r : Fin 1024) (q : Fin 1280) :
    k0_pay8 (F := Ideal) h w (ix2 r q) = ∑ j : Fin 1024, h (ix2 r j) * w (ix2 q j) := by
  unfold k0_pay8
  simp only [matmul]
  rw [Ideal.matmul_constant_zero_apply, ← Equiv.sum_comp (ValueIdx.contrEquiv1 dot_S1024x1024_S1280x1024_S1024x1280_1_1_0_0_n_n 1024 rfl rfl).symm]
  refine Finset.sum_congr rfl fun k _ => ?_
  have hk := ValueIdx.contrEquiv1_symm_val dot_S1024x1024_S1280x1024_S1024x1280_1_1_0_0_n_n 1024 rfl rfl k
  have el : dot_S1024x1024_S1280x1024_S1024x1280_1_1_0_0_n_n.lhsIdx (ix2 r q) ((ValueIdx.contrEquiv1 dot_S1024x1024_S1280x1024_S1024x1280_1_1_0_0_n_n 1024 rfl rfl).symm k) = ix2 r k := funext fun a => Fin.ext (by
    match a with
    | ⟨0, _⟩ => rfl
    | ⟨1, _⟩ => exact (DotDims.lhsIdx_val_of_single _ rfl _ _).trans hk)
  have er : dot_S1024x1024_S1280x1024_S1024x1280_1_1_0_0_n_n.rhsIdx (ix2 r q) ((ValueIdx.contrEquiv1 dot_S1024x1024_S1280x1024_S1024x1280_1_1_0_0_n_n 1024 rfl rfl).symm k) = ix2 q k := funext fun a => Fin.ext (by
    match a with
    | ⟨0, _⟩ => rfl
    | ⟨1, _⟩ => exact (DotDims.rhsIdx_val_of_single _ rfl _ _).trans hk)
  rw [el, er, shapeCast_self]
  rfl

/-- A vector read as a column, and a column read as a vector or spread over lanes, keep their entries. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row (r : Fin 1024) (q : Fin 1280) :
    reduces_S1024x1280_S1024.lift (ix1 r) q = ix2 r q := by
  funext a
  match a with
  | ⟨0, _⟩ => rfl
  | ⟨1, _⟩ => rfl

/-- A row's lane sum and lane maximum, the maximum folded from minus infinity. -/
theorem rowSum_apply (src : FVec Ideal S1024x1280 .f32) (hφ : FKind.Formats .f32)
    (hacc : (0x00000000#32 : BitVec 32) = 0x00000000#32) (r : Fin 1024) :
    multiReduction .add [1] S1024 src 0x00000000#32 reduces_S1024x1280_S1024 hφ hacc (ix1 r)
      = ∑ q : Fin 1280, src (ix2 r q) := by
  refine (Ideal.multiReduction_add_single src 0x00000000#32 reduces_S1024x1280_S1024 hφ hacc (ix1 r)).trans ?_
  show (∑ q : Fin 1280, src (reduces_S1024x1280_S1024.lift (ix1 r) q)) = _
  exact Finset.sum_congr rfl fun q _ => congrArg src (lift_row r q)

theorem ofBits_negInf_f32 : Ideal.ofBits .f32 0xFF800000#32 = ⊥ := by simp [Ideal.ofBits, Ideal.ieee]

theorem rowMax_apply (src : FVec Ideal S1024x1280 .f32) (hφ : FKind.Formats .f32)
    (hacc : (0xFF800000#32 : BitVec 32) = 0xFF800000#32) (r : Fin 1024) :
    multiReduction .maximumf [1] S1024 src 0xFF800000#32 reduces_S1024x1280_S1024 hφ hacc (ix1 r)
      = (Finset.univ : Finset (Fin 1280)).fold max ⊥ (fun q => src (ix2 r q)) := by
  refine (Ideal.multiReduction_maximumf_single src 0xFF800000#32 reduces_S1024x1280_S1024 hφ hacc (ix1 r)).trans ?_
  show (Finset.univ : Finset (Fin 1280)).fold max (Ideal.ofBits .f32 0xFF800000#32) (fun q => src (reduces_S1024x1280_S1024.lift (ix1 r) q)) = _
  rw [ofBits_negInf_f32]
  exact congrArg (fun f => (Finset.univ : Finset (Fin 1280)).fold max ⊥ f) (funext fun q => congrArg src (lift_row r q))

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

theorem pay10_apply (h : Vec Ideal S1024x1024 .bf16) (w : Vec Ideal S1280x1024 .f32) (m : Vec Ideal S1024x1 .f32) (r : Fin 1024) :
    k0_pay10 (F := Ideal) h w m (ix2 r (0 : Fin 1))
      = max (m (ix2 r (0 : Fin 1))) ((Finset.univ : Finset (Fin 1280)).fold max ⊥ (fun q => k0_pay8 (F := Ideal) h w (ix2 r q))) := by
  unfold k0_pay10
  rw [maximumf_apply, shapeCast_a_a1_apply, rowMax_apply]

/-- The new running sum: the old one rescaled to the new maximum, plus the row's shifted exponentials. -/
theorem pay11_apply (h : Vec Ideal S1024x1024 .bf16) (w : Vec Ideal S1280x1024 .f32) (v22 v24 v32 : Vec Ideal S1024x1 .f32) (r : Fin 1024) :
    k0_pay11 (F := Ideal) h w v22 v24 v32 (ix2 r (0 : Fin 1))
      = Ideal.exp (v24 (ix2 r (0 : Fin 1)) - k0_pay10 (F := Ideal) h w v22 (ix2 r (0 : Fin 1))) * v32 (ix2 r (0 : Fin 1))
        + ∑ q : Fin 1280, Ideal.exp (k0_pay8 (F := Ideal) h w (ix2 r q) - k0_pay10 (F := Ideal) h w v22 (ix2 r (0 : Fin 1))) := by
  unfold k0_pay11
  rw [addf_apply, mulf_apply, exp_apply, subf_apply, shapeCast_a_a1_apply, rowSum_apply]
  refine congrArg _ (Finset.sum_congr rfl fun q _ => ?_)
  rw [exp_apply, subf_apply, broadcastTo_a1_ab_apply]

theorem subi_apply {s : Shape} {w : ℕ} (x y : IVec s w) (i : s.Idx) : subi x y i = IntOp.subi (x i) (y i) := rfl
theorem cmpi_apply {s : Shape} {w : ℕ} (p : CmpIPredicate) (x y : IVec s w) (i : s.Idx) : cmpi p x y i = IntOp.cmpi p (x i) (y i) := rfl

/-- The masked row sum keeps a logit only where the token's offset in the tile is its lane. -/
theorem pay9_apply (i : grid0.Coords) (h : Vec Ideal S1024x1024 .bf16) (w : Vec Ideal S1280x1024 .f32) (ids : Vec Ideal S1024x1 .i32) (r : Fin 1024) :
    k0_pay9 (F := Ideal) i h w ids (ix2 r (0 : Fin 1))
      = ∑ q : Fin 1280, Scalar.select (IntOp.cmpi .eq (IntOp.subi (ids (ix2 r (0 : Fin 1))) (Scalar.muli (BitVec.ofNat 32 (i 1).val) 1280#32)) (BitVec.ofNat 32 q.val))
          (k0_pay8 (F := Ideal) h w (ix2 r q)) (0 : EReal) := by
  unfold k0_pay9
  rw [shapeCast_a_a1_apply, rowSum_apply]
  refine Finset.sum_congr rfl fun q _ => ?_
  rw [select_apply, cmpi_apply, broadcastTo_a1_ab_apply, subi_apply, shapeCast_self, broadcast_apply, broadcast_apply,
    iota_single_apply]
  show Scalar.select _ _ (Ideal.ofBits .f32 0x00000000#32) = _
  rw [Ideal.ofBits_zero_f32]

theorem pay1_eq (v : FVec Ideal S1024x1 .f32) : k0_pay1 (F := Ideal) v = v := shapeCast_self v _
theorem pay3_eq (v : FVec Ideal S1024x1 .f32) : k0_pay3 (F := Ideal) v = v := shapeCast_self v _
theorem pay2_eq (v19 : FVec Ideal S1024x1 .f32) (v38 : Vec Ideal S1024x1 .f32) : k0_pay2 (F := Ideal) v19 v38 = addf v38 v19 :=
  shapeCast_self _ _

theorem fin0_apply (s : Cols Ideal) (r : Fin 1024) :
    fin0 s (ix1 r) = s.2.2 (ix2 r (0 : Fin 1)) - (s.1 (ix2 r (0 : Fin 1)) + Ideal.log (s.2.1 (ix2 r (0 : Fin 1)))) := by
  unfold fin0 k0_pay4
  rw [shapeCast_a1_a_apply, subf_apply, addf_apply, log_apply]

theorem reset0_m (r : Fin 1024) : (reset0 (F := Ideal)).1 (ix2 r (0 : Fin 1)) = Ideal.ofBits .f32 0xFF333332#32 := by
  show k0_pay5 (F := Ideal) (ix2 r (0 : Fin 1)) = _
  unfold k0_pay5
  rw [shapeCast_self]; rfl
theorem reset0_l (r : Fin 1024) : (reset0 (F := Ideal)).2.1 (ix2 r (0 : Fin 1)) = 0 := by
  show k0_pay6 (F := Ideal) (ix2 r (0 : Fin 1)) = _
  unfold k0_pay6
  rw [shapeCast_self]; exact Ideal.ofBits_zero_f32
theorem reset0_s (r : Fin 1024) : (reset0 (F := Ideal)).2.2 (ix2 r (0 : Fin 1)) = 0 := by
  show k0_pay7 (F := Ideal) (ix2 r (0 : Fin 1)) = _
  unfold k0_pay7
  rw [shapeCast_self]; exact Ideal.ofBits_zero_f32

theorem step0_m (i : grid0.Coords) (h : Vec Ideal S1024x1024 .bf16) (w : Vec Ideal S1280x1024 .f32) (ids : Vec Ideal S1024x1 .i32)
    (s : Cols Ideal) (r : Fin 1024) :
    (step0 i h w ids s).1 (ix2 r (0 : Fin 1))
      = max (s.1 (ix2 r (0 : Fin 1))) ((Finset.univ : Finset (Fin 1280)).fold max ⊥ (fun q => k0_pay8 (F := Ideal) h w (ix2 r q))) := by
  show k0_pay3 (F := Ideal) (k0_pay10 (F := Ideal) h w s.1) (ix2 r (0 : Fin 1)) = _
  rw [pay3_eq, pay10_apply]

theorem step0_l (i : grid0.Coords) (h : Vec Ideal S1024x1024 .bf16) (w : Vec Ideal S1280x1024 .f32) (ids : Vec Ideal S1024x1 .i32)
    (s : Cols Ideal) (r : Fin 1024) :
    (step0 i h w ids s).2.1 (ix2 r (0 : Fin 1))
      = Ideal.exp (s.1 (ix2 r (0 : Fin 1)) - (step0 i h w ids s).1 (ix2 r (0 : Fin 1))) * s.2.1 (ix2 r (0 : Fin 1))
        + ∑ q : Fin 1280, Ideal.exp (k0_pay8 (F := Ideal) h w (ix2 r q) - (step0 i h w ids s).1 (ix2 r (0 : Fin 1))) := by
  unfold step0
  dsimp only
  rw [pay1_eq, pay3_eq, pay11_apply]

theorem step0_s (i : grid0.Coords) (h : Vec Ideal S1024x1024 .bf16) (w : Vec Ideal S1280x1024 .f32) (ids : Vec Ideal S1024x1 .i32)
    (s : Cols Ideal) (r : Fin 1024) :
    (step0 i h w ids s).2.2 (ix2 r (0 : Fin 1))
      = s.2.2 (ix2 r (0 : Fin 1))
        + ∑ q : Fin 1280, Scalar.select (IntOp.cmpi .eq (IntOp.subi (ids (ix2 r (0 : Fin 1))) (Scalar.muli (BitVec.ofNat 32 (i 1).val) 1280#32)) (BitVec.ofNat 32 q.val))
          (k0_pay8 (F := Ideal) h w (ix2 r q)) (0 : EReal) := by
  show k0_pay2 (F := Ideal) (k0_pay9 (F := Ideal) i h w ids) s.2.2 (ix2 r (0 : Fin 1)) = _
  rw [pay2_eq, addf_apply, pay9_apply]

/-- Finite sums and maxima of reals are the same inside the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (y z : ℝ) : max (y : EReal) (z : EReal) = ((max y z : ℝ) : EReal) :=
  (EReal.coe_strictMono.monotone.map_max).symm

/-- A running maximum of reals started at minus infinity is minus infinity or real, so a real carried against it stays real. -/
theorem fold_max_real {ι : Type*} (s : Finset ι) (f : ι → EReal) (hf : ∀ i, ∃ y : ℝ, f i = (y : EReal)) :
    s.fold max ⊥ f = ⊥ ∨ ∃ y : ℝ, s.fold max ⊥ f = (y : EReal) := by
  classical
  induction s using Finset.induction_on with
  | empty => left; simp
  | insert a s ha ih =>
    right
    obtain ⟨y, hy⟩ := hf a
    rw [Finset.fold_insert ha, hy]
    rcases ih with h | ⟨z, hz⟩
    · exact ⟨y, by rw [h]; simp⟩
    · exact ⟨max y z, by rw [hz, coe_max']⟩

theorem max_coe_fold {ι : Type*} (s : Finset ι) (f : ι → EReal) (hf : ∀ i, ∃ y : ℝ, f i = (y : EReal)) (m : ℝ) :
    ∃ m' : ℝ, max (m : EReal) (s.fold max ⊥ f) = (m' : EReal) := by
  rcases fold_max_real s f hf with h | ⟨z, hz⟩
  · exact ⟨m, by rw [h]; simp⟩
  · exact ⟨max m z, by rw [hz, coe_max']⟩

theorem exp_sub_coe (a b : ℝ) : Ideal.exp ((a : EReal) - (b : EReal)) = ((Real.exp (a - b) : ℝ) : EReal) := by
  rw [← EReal.coe_sub, Ideal.exp_coe]

theorem sum_update_coe {n : ℕ} (mo mn lo : ℝ) (x : Fin n → ℝ) :
    Ideal.exp ((mo : EReal) - (mn : EReal)) * (lo : EReal) + ∑ q : Fin n, Ideal.exp ((x q : EReal) - (mn : EReal))
      = ((Real.exp (mo - mn) * lo + ∑ q : Fin n, Real.exp (x q - mn) : ℝ) : EReal) := by
  rw [EReal.coe_add, EReal.coe_mul, coe_sum, exp_sub_coe]
  exact congrArg _ (Finset.sum_congr rfl fun q _ => exp_sub_coe _ _)

/-- Moving a sum of shifted exponentials from one shift to another multiplies it by the exponential of the difference. -/
theorem rescale {ι : Type*} (s : Finset ι) (y : ι → ℝ) (mo mn : ℝ) :
    Real.exp (mo - mn) * ∑ i ∈ s, Real.exp (y i - mo) = ∑ i ∈ s, Real.exp (y i - mn) := by
  rw [Finset.mul_sum]
  refine Finset.sum_congr rfl fun i _ => ?_
  rw [← Real.exp_add]
  congr 1; ring

theorem rescale2 {ι κ : Type*} (s : Finset ι) (t : Finset κ) (y : ι → κ → ℝ) (mo mn : ℝ) :
    Real.exp (mo - mn) * ∑ i ∈ s, ∑ j ∈ t, Real.exp (y i j - mo) = ∑ i ∈ s, ∑ j ∈ t, Real.exp (y i j - mn) := by
  rw [Finset.mul_sum]
  exact Finset.sum_congr rfl fun i _ => rescale t (y i) mo mn

/-- Summing a tiles of b lanes is summing over the range of length b * a. -/
theorem sum_tiles {M : Type*} [AddCommMonoid M] (a b : ℕ) (f : ℕ → M) :
    ∑ k ∈ Finset.range a, ∑ q : Fin b, f (b * k + q.val) = ∑ v ∈ Finset.range (b * a), f v := by
  induction a with
  | zero => simp
  | succ a ih =>
    rw [Finset.sum_range_succ, ih, Nat.mul_succ, Finset.sum_range_add]
    congr 1
    exact Fin.sum_univ_eq_sum_range (fun q => f (b * a + q)) b

/-- Below 32000, 25 and 1280 the 32-bit words token - tile * 1280 and lane agree exactly when the token is that tile's lane. -/
theorem mask_iff (t k q : ℕ) (ht : t < 32000) (hk : k < 25) (hq : q < 1280) :
    BitVec.ofNat 32 t - BitVec.ofNat 32 k * 1280#32 = BitVec.ofNat 32 q ↔ t = 1280 * k + q := by
  constructor
  · intro he
    have h := congrArg BitVec.toNat he
    simp only [BitVec.toNat_sub, BitVec.toNat_mul, BitVec.toNat_ofNat] at h
    omega
  · rintro rfl
    apply BitVec.eq_of_toNat_eq
    simp only [BitVec.toNat_sub, BitVec.toNat_mul, BitVec.toNat_ofNat]
    omega

theorem select_mask {α : Type} (t k q : ℕ) (ht : t < 32000) (hk : k < 25) (hq : q < 1280) (A B : α) :
    Scalar.select (IntOp.cmpi .eq (IntOp.subi (BitVec.ofNat 32 t) (Scalar.muli (BitVec.ofNat 32 k) 1280#32)) (BitVec.ofNat 32 q)) A B
      = if t = 1280 * k + q then A else B := by
  have hm := mask_iff t k q ht hk hq
  show (if BitVec.ofBool (BitVec.ofNat 32 t - BitVec.ofNat 32 k * 1280#32 == BitVec.ofNat 32 q) = 1#1 then A else B) = _
  by_cases hc : t = 1280 * k + q
  · rw [if_pos hc, if_pos]
    rw [hm.mpr hc]; simp
  · rw [if_neg hc, if_neg]
    intro hb
    apply hc
    apply hm.mp
    cases hbb : (BitVec.ofNat 32 t - BitVec.ofNat 32 k * 1280#32 == BitVec.ofNat 32 q) with
    | true => exact eq_of_beq hbb
    | false => rw [hbb] at hb; exact absurd hb (by decide)

/-- The logit of row r against vocabulary entry v, zero past the vocabulary. -/
def xv (hr : Fin 1024 → Fin 1024 → ℝ) (wr : Fin 32000 → Fin 1024 → ℝ) (r : Fin 1024) (v : ℕ) : ℝ :=
  if hv : v < 32000 then ∑ j : Fin 1024, hr r j * wr ⟨v, hv⟩ j else 0

theorem pay8_real (h : Vec Ideal S1024x1024 .bf16) (w : Vec Ideal S1280x1024 .f32)
    (hr : Fin 1024 → Fin 1024 → ℝ) (wr : Fin 32000 → Fin 1024 → ℝ) (k : ℕ) (h25 : k < 25)
    (hh : ∀ (r j : Fin 1024), h (ix2 r j) = ((hr r j : ℝ) : EReal))
    (hw : ∀ (q : Fin 1280) (j : Fin 1024), w (ix2 q j) = ((wr ⟨1280 * k + q.val, by omega⟩ j : ℝ) : EReal))
    (r : Fin 1024) (q : Fin 1280) :
    k0_pay8 (F := Ideal) h w (ix2 r q) = ((xv hr wr r (1280 * k + q.val) : ℝ) : EReal) := by
  rw [pay8_apply]
  unfold xv
  rw [dif_pos (by omega : 1280 * k + q.val < 32000), coe_sum]
  refine Finset.sum_congr rfl fun j _ => ?_
  rw [hh, hw, EReal.coe_mul]

/-- The word the running maximum starts from is a finite number. -/
theorem sentinel_real : ∃ m0 : ℝ, Ideal.ofBits .f32 0xFF333332#32 = (m0 : EReal) := by
  show ∃ m0 : ℝ, Ideal.ieee 8 23 (0xFF333332#32 : BitVec 32) = (m0 : EReal)
  unfold Ideal.ieee
  rw [if_neg (by decide), if_neg (by decide)]
  exact ⟨_, rfl⟩

/-- After K tiles: a real shift m, the sum of exp (x v - m) over the first 1280 K entries, and the token's logit if it is among them. -/
def Inv (hr : Fin 1024 → Fin 1024 → ℝ) (wr : Fin 32000 → Fin 1024 → ℝ) (idr : Fin 1024 → Fin 32000) (r : Fin 1024)
    (c : Cols Ideal) (K : ℕ) : Prop :=
  ∃ m : ℝ, c.1 (ix2 r (0 : Fin 1)) = (m : EReal)
    ∧ c.2.1 (ix2 r (0 : Fin 1))
        = ((∑ k ∈ Finset.range K, ∑ q : Fin 1280, Real.exp (xv hr wr r (1280 * k + q.val) - m) : ℝ) : EReal)
    ∧ c.2.2 (ix2 r (0 : Fin 1))
        = ((∑ k ∈ Finset.range K, ∑ q : Fin 1280,
            (if (idr r).val = 1280 * k + q.val then xv hr wr r (1280 * k + q.val) else 0) : ℝ) : EReal)

theorem Inv_reset (hr : Fin 1024 → Fin 1024 → ℝ) (wr : Fin 32000 → Fin 1024 → ℝ) (idr : Fin 1024 → Fin 32000) (r : Fin 1024) :
    Inv hr wr idr r (reset0 (F := Ideal)) 0 := by
  obtain ⟨m0, hm0⟩ := sentinel_real
  refine ⟨m0, ?_, ?_, ?_⟩
  · rw [reset0_m, hm0]
  · rw [reset0_l, Finset.sum_range_zero, EReal.coe_zero]
  · rw [reset0_s, Finset.sum_range_zero, EReal.coe_zero]

/-- Tile K carries the invariant from K to K + 1, whatever the new maximum is, because the old sum is rescaled to it. -/
theorem Inv_step (i : grid0.Coords) (h : Vec Ideal S1024x1024 .bf16) (w : Vec Ideal S1280x1024 .f32) (ids : Vec Ideal S1024x1 .i32)
    (hr : Fin 1024 → Fin 1024 → ℝ) (wr : Fin 32000 → Fin 1024 → ℝ) (idr : Fin 1024 → Fin 32000) (K : ℕ) (hK : K < 25)
    (hi : (i 1).val = K)
    (hh : ∀ (r j : Fin 1024), h (ix2 r j) = ((hr r j : ℝ) : EReal))
    (hw : ∀ (q : Fin 1280) (j : Fin 1024), w (ix2 q j) = ((wr ⟨1280 * K + q.val, by omega⟩ j : ℝ) : EReal))
    (hid : ∀ r : Fin 1024, ids (ix2 r (0 : Fin 1)) = BitVec.ofNat 32 (idr r).val)
    (r : Fin 1024) (c : Cols Ideal) (hc : Inv hr wr idr r c K) :
    Inv hr wr idr r (step0 i h w ids c) (K + 1) := by
  obtain ⟨m, hm, hl, hs⟩ := hc
  have hx : ∀ q : Fin 1280, k0_pay8 (F := Ideal) h w (ix2 r q) = ((xv hr wr r (1280 * K + q.val) : ℝ) : EReal) :=
    pay8_real h w hr wr K hK hh hw r
  obtain ⟨m', hm'⟩ := max_coe_fold Finset.univ (fun q : Fin 1280 => k0_pay8 (F := Ideal) h w (ix2 r q)) (fun q => ⟨_, hx q⟩) m
  have hM : (step0 i h w ids c).1 (ix2 r (0 : Fin 1)) = (m' : EReal) := by rw [step0_m, hm, hm']
  refine ⟨m', hM, ?_, ?_⟩
  · rw [step0_l, hM, hm, hl]
    simp only [hx]
    rw [sum_update_coe m m' _ (fun q : Fin 1280 => xv hr wr r (1280 * K + q.val)),
      rescale2 (Finset.range K) (Finset.univ : Finset (Fin 1280)) (fun k q => xv hr wr r (1280 * k + q.val)) m m',
      Finset.sum_range_succ]
  · rw [step0_s, hs, hid r, hi]
    have e2 : ∀ q : Fin 1280,
        Scalar.select (IntOp.cmpi .eq (IntOp.subi (BitVec.ofNat 32 (idr r).val) (Scalar.muli (BitVec.ofNat 32 K) 1280#32)) (BitVec.ofNat 32 q.val))
            (k0_pay8 (F := Ideal) h w (ix2 r q)) (0 : EReal)
          = (((if (idr r).val = 1280 * K + q.val then xv hr wr r (1280 * K + q.val) else 0) : ℝ) : EReal) := fun q => by
      rw [select_mask _ _ _ (idr r).isLt hK q.isLt, hx q]
      split
      · rfl
      · exact EReal.coe_zero.symm
    rw [Finset.sum_congr rfl (fun q _ => e2 q), ← coe_sum, ← EReal.coe_add, Finset.sum_range_succ]

end Cert.KernelIdeal.Hand.Lm0

namespace Cert.KernelIdeal.Hand

open Cert.KernelIdeal Cert.KernelIdeal.Gen
open Idealize.ShloMosaic Idealize.SL.Sem Idealize.ShloMosaic.ValueIdx
open scoped BigOperators
open Lm0

/-- The carried columns after vocabulary tile k of one row tile. -/
def colsK (ik : ℕ → grid0.Coords) (hk : ℕ → Vec Ideal S1024x1024 .bf16) (wk : ℕ → Vec Ideal S1280x1024 .f32) (idk : ℕ → Vec Ideal S1024x1 .i32) : ℕ → Cols Ideal
  | 0 => step0 (ik 0) (hk 0) (wk 0) (idk 0) reset0
  | k + 1 => step0 (ik (k + 1)) (hk (k + 1)) (wk (k + 1)) (idk (k + 1)) (colsK ik hk wk idk k)

/-- After the 25 tiles the sums run over the whole vocabulary and adding the shift back after the logarithm undoes it. -/
theorem fin0_colsK (ik : ℕ → grid0.Coords) (hk : ℕ → Vec Ideal S1024x1024 .bf16) (wk : ℕ → Vec Ideal S1280x1024 .f32) (idk : ℕ → Vec Ideal S1024x1 .i32)
    (hr : Fin 1024 → Fin 1024 → ℝ) (wr : Fin 32000 → Fin 1024 → ℝ) (idr : Fin 1024 → Fin 32000)
    (hik : ∀ k, k < 25 → ((ik k) 1).val = k)
    (hh : ∀ k, k < 25 → ∀ (r j : Fin 1024), hk k (ValueIdx.ix2 r j) = ((hr r j : ℝ) : EReal))
    (hw : ∀ k (h25 : k < 25) (q : Fin 1280) (j : Fin 1024), wk k (ValueIdx.ix2 q j) = ((wr ⟨1280 * k + q.val, by omega⟩ j : ℝ) : EReal))
    (hid : ∀ k, k < 25 → ∀ r : Fin 1024, idk k (ValueIdx.ix2 r (0 : Fin 1)) = BitVec.ofNat 32 (idr r).val)
    (r : Fin 1024) :
    fin0 (colsK ik hk wk idk 24) (ValueIdx.ix1 r)
      = (((∑ j : Fin 1024, hr r j * wr (idr r) j) - Real.log (∑ v : Fin 32000, Real.exp (∑ j : Fin 1024, hr r j * wr v j)) : ℝ) : EReal) := by
  have hInv : ∀ K, K < 25 → Inv hr wr idr r (colsK ik hk wk idk K) (K + 1) := by
    intro K
    induction K with
    | zero =>
      intro h0
      exact Inv_step (ik 0) (hk 0) (wk 0) (idk 0) hr wr idr 0 h0 (hik 0 h0) (hh 0 h0) (hw 0 h0) (hid 0 h0) r _
        (Inv_reset hr wr idr r)
    | succ K ih =>
      intro hK
      exact Inv_step (ik (K + 1)) (hk (K + 1)) (wk (K + 1)) (idk (K + 1)) hr wr idr (K + 1) hK (hik _ hK) (hh _ hK) (hw _ hK)
        (hid _ hK) r _ (ih (by omega))
  obtain ⟨m, hm, hl, hs⟩ := hInv 24 (by norm_num)
  have h32 : 1280 * 25 = 32000 := by norm_num
  have hne : (Finset.range 32000).Nonempty := ⟨0, Finset.mem_range.2 (by norm_num)⟩

  have hL : (∑ k ∈ Finset.range (24 + 1), ∑ q : Fin 1280, Real.exp (xv hr wr r (1280 * k + q.val) - m))
      = ∑ v ∈ Finset.range 32000, Real.exp (xv hr wr r v - m) := by
    rw [sum_tiles 25 1280 (fun v => Real.exp (xv hr wr r v - m)), h32]
  have hS : (∑ k ∈ Finset.range (24 + 1), ∑ q : Fin 1280,
        (if (idr r).val = 1280 * k + q.val then xv hr wr r (1280 * k + q.val) else 0))
      = xv hr wr r (idr r).val := by
    rw [sum_tiles 25 1280 (fun v => if (idr r).val = v then xv hr wr r v else 0), h32, Finset.sum_ite_eq,
      if_pos (Finset.mem_range.2 (idr r).isLt)]
  have hpos : 0 < ∑ v ∈ Finset.range 32000, Real.exp (xv hr wr r v - m) :=
    Finset.sum_pos (fun v _ => Real.exp_pos _) hne
  rw [fin0_apply, hm, hl, hs, hL, hS, Ideal.log_coe, if_neg (not_le.2 hpos), ← EReal.coe_add, ← EReal.coe_sub,
    Cert.Spec.lse_shift (Finset.range 32000) hne (xv hr wr r) m]

  have hX : xv hr wr r (idr r).val = ∑ j : Fin 1024, hr r j * wr (idr r) j := by
    unfold xv
    rw [dif_pos (idr r).isLt]
  have hV : (∑ v ∈ Finset.range 32000, Real.exp (xv hr wr r v))
      = ∑ v : Fin 32000, Real.exp (∑ j : Fin 1024, hr r j * wr v j) := by
    rw [← Fin.sum_univ_eq_sum_range (fun v => Real.exp (xv hr wr r v)) 32000]
    refine Finset.sum_congr rfl fun v _ => ?_
    unfold xv
    rw [dif_pos v.isLt]
  rw [hX, hV]

end Cert.KernelIdeal.Hand

end
-- ==== Proof.KI.LmArr.lean ====
import proofs.«423802_j62801011802684_3_alg».proof.Proof.KI.Dat0
import proofs.«423802_j62801011802684_3_alg».proof.Proof.KI.LmValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

namespace Arr

def lpRow (hr : Fin 2048 → Fin 1024 → ℝ) (wr : Fin 32000 → Fin 1024 → ℝ) (idr : Fin 2048 → Fin 32000) (n : Fin 2048) : EReal :=
  (((∑ j : Fin 1024, hr n j * wr (idr n) j) - Real.log (∑ v : Fin 32000, Real.exp (∑ j : Fin 1024, hr n j * wr v j)) : ℝ) : EReal)

/-- Along a row tile the carried columns are the tile-by-tile sweep of its own blocks, so tile 24 leaves each row's log-probability. -/
theorem sweep_value {N : ℕ} (hN : N = 50)
    (co : Fin N → grid0.Coords) (hb : Fin N → Vec Ideal S1024x1024 .bf16) (wb : Fin N → Vec Ideal S1280x1024 .f32)
    (ib : Fin N → Vec Ideal S1024x1 .i32) (sc : (n : ℕ) → n < N → Cols Ideal)
    (hfirst : ∀ t : Fin N, t.val % 25 = 0 → sc t.val t.isLt = step0 (co t) (hb t) (wb t) (ib t) reset0)
    (hlater : ∀ t : Fin N, ¬t.val % 25 = 0 → sc t.val t.isLt
      = step0 (co t) (hb t) (wb t) (ib t) (sc (t.val - 1) (Nat.lt_of_le_of_lt (Nat.sub_le _ _) t.isLt)))
    (hr : Fin 2048 → Fin 1024 → ℝ) (wr : Fin 32000 → Fin 1024 → ℝ) (idr : Fin 2048 → Fin 32000)
    (hco : ∀ t, ((co t) 1).val = t.val % 25)
    (hh : ∀ t (r j : Fin 1024) (n : Fin 2048), n.val = 1024 * (t.val / 25) + r.val → hb t (ix2 r j) = ((hr n j : ℝ) : EReal))
    (hw : ∀ t (q : Fin 1280) (j : Fin 1024) (v : Fin 32000), v.val = 1280 * (t.val % 25) + q.val →
      wb t (ix2 q j) = ((wr v j : ℝ) : EReal))
    (hid : ∀ t (r : Fin 1024) (n : Fin 2048), n.val = 1024 * (t.val / 25) + r.val →
      ib t (ix2 r (0 : Fin 1)) = BitVec.ofNat 32 (idr n).val)
    (t : Fin N) (h24 : t.val % 25 = 24) (r : Fin 1024) (n : Fin 2048) (hn : n.val = 1024 * (t.val / 25) + r.val) :
    fin0 (sc t.val t.isLt) (ix1 r) = lpRow hr wr idr n := by
  subst hN
  have ht := t.isLt
  have hr' := r.isLt
  obtain ⟨i, hi⟩ : ∃ i, t.val = 25 * i + 24 := ⟨t.val / 25, by omega⟩
  obtain ⟨p, hp⟩ : ∃ p : ℕ → Fin 50, ∀ k, k < 25 → (p k).val = 25 * i + k :=
    ⟨fun k => ⟨(25 * i + k) % 50, Nat.mod_lt _ (by norm_num)⟩, fun k hk => by show (25 * i + k) % 50 = _; omega⟩
  obtain ⟨ρ, hρ⟩ : ∃ ρ : Fin 1024 → Fin 2048, ∀ r, (ρ r).val = 1024 * i + r.val :=
    ⟨fun r => ⟨(1024 * i + r.val) % 2048, Nat.mod_lt _ (by norm_num)⟩, fun r => by
      show (1024 * i + r.val) % 2048 = _
      have := r.isLt
      omega⟩
  have hsc : ∀ k, k < 25 → ∀ (m : ℕ) (h : m < 50), m = 25 * i + k →
      sc m h = colsK (fun k => co (p k)) (fun k => hb (p k)) (fun k => wb (p k)) (fun k => ib (p k)) k := by
    intro k
    induction k with
    | zero =>
      intro hk m h e
      refine (hfirst ⟨m, h⟩ (by show m % 25 = 0; omega)).trans ?_
      rw [← (Fin.ext ((hp 0 hk).trans e.symm) : p 0 = ⟨m, h⟩)]
      rfl
    | succ k ih =>
      intro hk m h e
      refine (hlater ⟨m, h⟩ (by show ¬m % 25 = 0; omega)).trans ?_
      rw [ih (by omega) (m - 1) _ (by omega), ← (Fin.ext ((hp (k + 1) hk).trans e.symm) : p (k + 1) = ⟨m, h⟩)]
      rfl
  rw [hsc 24 (by norm_num) t.val t.isLt hi]
  refine (fin0_colsK _ _ _ _ (fun r j => hr (ρ r) j) wr (fun r => idr (ρ r)) ?_ ?_ ?_ ?_ r).trans ?_
  · intro k hk
    show ((co (p k)) 1).val = k
    rw [hco, hp k hk]
    omega
  · intro k hk r j
    exact hh (p k) r j (ρ r) (by rw [hρ, hp k hk]; omega)
  · intro k hk q j
    exact hw (p k) q j ⟨1280 * k + q.val, by omega⟩ (by show 1280 * k + q.val = _; rw [hp k hk]; omega)
  · intro k hk r
    exact hid (p k) r (ρ r) (by rw [hρ, hp k hk]; omega)
  · show lpRow hr wr idr (ρ r) = lpRow hr wr idr n
    rw [(Fin.ext ((hρ r).trans (by omega)) : ρ r = n)]

end Arr

namespace Arr0

theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ win0_3.index t (0 : Fin 1) = t.val / 25
    ∧ ((grid0.coords t) 1).val = t.val % 25 :=
  (by decide +kernel : ∀ t : Fin grid0.N, _)

/-- Every row lies in the output block of the last vocabulary tile of its row tile. -/
theorem cover (i : S2048.Idx) : ∃ t : Fin cfg0.N, (cfg0.win 3).flush t = true ∧ i ∈ ((cfg0.win 3).blk t).view.set := by
  have hi : (i 0).val < 2048 := (i 0).isLt
  have hN : cfg0.N = 50 := N_0
  obtain ⟨t, ht⟩ : ∃ t : Fin cfg0.N, t.val = 25 * ((i 0).val / 1024) + 24 := ⟨⟨25 * ((i 0).val / 1024) + 24, by omega⟩, rfl⟩
  refine ⟨t, (flush0_3 t).mpr (by omega), ?_⟩
  show i ∈ ((View.whole main_v6).slice (win0_3.rect t)).set
  rw [View.set_slice_whole, Rect.mem_set_unit]
  intro a
  match a with
  | ⟨0, _⟩ =>
    show win0_3.index t (0 : Fin 1) * 1024 ≤ (i 0).val ∧ (i 0).val < win0_3.index t (0 : Fin 1) * 1024 + 1024
    rw [(idx_facts t).2.2.2.2.2.2.1]
    omega

end Arr0

/-- The last tiles' blocks cover the output and each holds its rows' log-probabilities. -/
theorem arr0_value (V : (c : Dev nD) → (b : Ref sig .tc) → Buf (Elt Ideal) ((c : Thread nD τ).loc b)) (c : Dev nD)
    (hr : Fin 2048 → Fin 1024 → ℝ) (wr : Fin 32000 → Fin 1024 → ℝ) (idr : Fin 2048 → Fin 32000)
    (hh : ∀ (n : Fin 2048) (j : Fin 1024), V c main_v3 (ValueIdx.ix2 n j) = ((hr n j : ℝ) : EReal))
    (hw : ∀ (v : Fin 32000) (j : Fin 1024), V c main_arg5 (ValueIdx.ix2 v j) = ((wr v j : ℝ) : EReal))
    (hid : ∀ n : Fin 2048, V c main_v1 (ValueIdx.ix2 n (0 : Fin 1)) = BitVec.ofNat 32 (idr n).val)
    (n : Fin 2048) :
    (dat0 (F := Ideal) V c).arrAt 3 cfg0.N (ValueIdx.ix1 n)
      = (((∑ j : Fin 1024, hr n j * wr (idr n) j) - Real.log (∑ v : Fin 32000, Real.exp (∑ j : Fin 1024, hr n j * wr v j)) : ℝ) : EReal) := by
  refine congrFun ((dat0 V c).arrAt_eq_of_cover 3 (fun n => Arr.lpRow hr wr idr (n 0)) (fun t hf => ?_) Arr0.cover) (ix1 n)
  show (cfg0.win 3).cut (grid0.coords t) ((dat0 V c).after 3 t) = _
  rw [after0_3]
  funext y
  show fin0 (scAt0 V c t.val t.isLt) y = Arr.lpRow hr wr idr ((((cfg0.win 3).blk t).view.emb y) 0)
  rw [eq_ix1 y]
  refine Arr.sweep_value N_0 grid0.coords (fun t => (iblk0 V c 0 t : Vec Ideal S1024x1024 .bf16))
    (fun t => (iblk0 V c 1 t : Vec Ideal S1280x1024 .f32)) (fun t => (iblk0 V c 2 t : Vec Ideal S1024x1 .i32))
    (scAt0 V c) (scAt0_first V c) (scAt0_later V c) hr wr idr
    (fun t => (Arr0.idx_facts t).2.2.2.2.2.2.2) ?_ ?_ ?_ t ((flush0_3 t).mp hf) (y 0) _ ?_
  · intro t r j n hn
    obtain ⟨e0, e1, -⟩ := Arr0.idx_facts t
    refine Eq.trans ?_ (hh n j)
    unfold iblk0
    rw [View.read_apply]
    show V c main_v3 _ = V c main_v3 _
    congr 1
    funext a
    apply Fin.ext
    match a with
    | ⟨0, _⟩ => show win0_0.index t (0 : Fin 2) * 1024 + 1 * r.val = n.val; rw [e0, hn]; omega
    | ⟨1, _⟩ => show win0_0.index t (1 : Fin 2) * 1024 + 1 * j.val = j.val; rw [e1]; omega
  · intro t q j v hv
    obtain ⟨-, -, e0, e1, -⟩ := Arr0.idx_facts t
    refine Eq.trans ?_ (hw v j)
    unfold iblk0
    rw [View.read_apply]
    show V c main_arg5 _ = V c main_arg5 _
    congr 1
    funext a
    apply Fin.ext
    match a with
    | ⟨0, _⟩ => show win0_1.index t (0 : Fin 2) * 1280 + 1 * q.val = v.val; rw [e0, hv]; omega
    | ⟨1, _⟩ => show win0_1.index t (1 : Fin 2) * 1024 + 1 * j.val = j.val; rw [e1]; omega
  · intro t r n hn
    obtain ⟨-, -, -, -, e0, e1, -⟩ := Arr0.idx_facts t
    refine Eq.trans ?_ (hid n)
    unfold iblk0
    rw [View.read_apply]
    show V c main_v1 _ = V c main_v1 _
    congr 1
    funext a
    apply Fin.ext
    match a with
    | ⟨0, _⟩ => show win0_2.index t (0 : Fin 2) * 1024 + 1 * r.val = n.val; rw [e0, hn]; omega
    | ⟨1, _⟩ => show win0_2.index t (1 : Fin 2) * 1 + 1 * 0 = 0; rw [e1]
  · show win0_3.index t (0 : Fin 1) * 1024 + 1 * (y 0).val = 1024 * (t.val / 25) + (y 0).val
    rw [(Arr0.idx_facts t).2.2.2.2.2.2.1]
    omega

end Cert.KernelIdeal.Hand

end
-- ==== Proof.KI.LmArr1.lean ====
import proofs.«423802_j62801011802684_3_alg».proof.Proof.KI.Dat1
import proofs.«423802_j62801011802684_3_alg».proof.Proof.KI.LmArr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

namespace Arr1

theorem idx_facts : ∀ t : Fin cfg1.N,
    win1_0.index t (0 : Fin 2) = t.val / 25 ∧ win1_0.index t (1 : Fin 2) = 0
    ∧ win1_1.index t (0 : Fin 2) = t.val % 25 ∧ win1_1.index t (1 : Fin 2) = 0
    ∧ win1_2.index t (0 : Fin 2) = t.val / 25 ∧ win1_2.index t (1 : Fin 2) = 0
    ∧ win1_3.index t (0 : Fin 1) = t.val / 25
    ∧ ((grid1.coords t) 1).val = t.val % 25 :=
  (by decide +kernel : ∀ t : Fin grid1.N, _)

/-- Every row lies in the output block of the last vocabulary tile of its row tile. -/
theorem cover (i : S2048.Idx) : ∃ t : Fin cfg1.N, (cfg1.win 3).flush t = true ∧ i ∈ ((cfg1.win 3).blk t).view.set := by
  have hi : (i 0).val < 2048 := (i 0).isLt
  have hN : cfg1.N = 50 := N_1
  obtain ⟨t, ht⟩ : ∃ t : Fin cfg1.N, t.val = 25 * ((i 0).val / 1024) + 24 := ⟨⟨25 * ((i 0).val / 1024) + 24, by omega⟩, rfl⟩
  refine ⟨t, (flush1_3 t).mpr (by omega), ?_⟩
  show i ∈ ((View.whole main_v8).slice (win1_3.rect t)).set
  rw [View.set_slice_whole, Rect.mem_set_unit]
  intro a
  match a with
  | ⟨0, _⟩ =>
    show win1_3.index t (0 : Fin 1) * 1024 ≤ (i 0).val ∧ (i 0).val < win1_3.index t (0 : Fin 1) * 1024 + 1024
    rw [(idx_facts t).2.2.2.2.2.2.1]
    omega

end Arr1

/-- The last tiles' blocks cover the output and each holds its rows' log-probabilities. -/
theorem arr1_value (V : (c : Dev nD) → (b : Ref sig .tc) → Buf (Elt Ideal) ((c : Thread nD τ).loc b)) (c : Dev nD)
    (hr : Fin 2048 → Fin 1024 → ℝ) (wr : Fin 32000 → Fin 1024 → ℝ) (idr : Fin 2048 → Fin 32000)
    (hh : ∀ (n : Fin 2048) (j : Fin 1024), V c main_v5 (ValueIdx.ix2 n j) = ((hr n j : ℝ) : EReal))
    (hw : ∀ (v : Fin 32000) (j : Fin 1024), V c main_arg6 (ValueIdx.ix2 v j) = ((wr v j : ℝ) : EReal))
    (hid : ∀ n : Fin 2048, V c main_v1 (ValueIdx.ix2 n (0 : Fin 1)) = BitVec.ofNat 32 (idr n).val)
    (n : Fin 2048) :
    (dat1 (F := Ideal) V c).arrAt 3 cfg1.N (ValueIdx.ix1 n)
      = (((∑ j : Fin 1024, hr n j * wr (idr n) j) - Real.log (∑ v : Fin 32000, Real.exp (∑ j : Fin 1024, hr n j * wr v j)) : ℝ) : EReal) := by
  refine congrFun ((dat1 V c).arrAt_eq_of_cover 3 (fun n => Arr.lpRow hr wr idr (n 0)) (fun t hf => ?_) Arr1.cover) (ix1 n)
  show (cfg1.win 3).cut (grid1.coords t) ((dat1 V c).after 3 t) = _
  rw [after1_3]
  funext y
  show fin0 (scAt1 V c t.val t.isLt) y = Arr.lpRow hr wr idr ((((cfg1.win 3).blk t).view.emb y) 0)
  rw [eq_ix1 y]
  refine Arr.sweep_value N_1 grid1.coords (fun t => (iblk1 V c 0 t : Vec Ideal S1024x1024 .bf16))
    (fun t => (iblk1 V c 1 t : Vec Ideal S1280x1024 .f32)) (fun t => (iblk1 V c 2 t : Vec Ideal S1024x1 .i32))
    (scAt1 V c) (scAt1_first V c) (scAt1_later V c) hr wr idr
    (fun t => (Arr1.idx_facts t).2.2.2.2.2.2.2) ?_ ?_ ?_ t ((flush1_3 t).mp hf) (y 0) _ ?_
  · intro t r j n hn
    obtain ⟨e0, e1, -⟩ := Arr1.idx_facts t
    refine Eq.trans ?_ (hh n j)
    unfold iblk1
    rw [View.read_apply]
    show V c main_v5 _ = V c main_v5 _
    congr 1
    funext a
    apply Fin.ext
    match a with
    | ⟨0, _⟩ => show win1_0.index t (0 : Fin 2) * 1024 + 1 * r.val = n.val; rw [e0, hn]; omega
    | ⟨1, _⟩ => show win1_0.index t (1 : Fin 2) * 1024 + 1 * j.val = j.val; rw [e1]; omega
  · intro t q j v hv
    obtain ⟨-, -, e0, e1, -⟩ := Arr1.idx_facts t
    refine Eq.trans ?_ (hw v j)
    unfold iblk1
    rw [View.read_apply]
    show V c main_arg6 _ = V c main_arg6 _
    congr 1
    funext a
    apply Fin.ext
    match a with
    | ⟨0, _⟩ => show win1_1.index t (0 : Fin 2) * 1280 + 1 * q.val = v.val; rw [e0, hv]; omega
    | ⟨1, _⟩ => show win1_1.index t (1 : Fin 2) * 1024 + 1 * j.val = j.val; rw [e1]; omega
  · intro t r n hn
    obtain ⟨-, -, -, -, e0, e1, -⟩ := Arr1.idx_facts t
    refine Eq.trans ?_ (hid n)
    unfold iblk1
    rw [View.read_apply]
    show V c main_v1 _ = V c main_v1 _
    congr 1
    funext a
    apply Fin.ext
    match a with
    | ⟨0, _⟩ => show win1_2.index t (0 : Fin 2) * 1024 + 1 * r.val = n.val; rw [e0, hn]; omega
    | ⟨1, _⟩ => show win1_2.index t (1 : Fin 2) * 1 + 1 * 0 = 0; rw [e1]
  · show win1_3.index t (0 : Fin 1) * 1024 + 1 * (y 0).val = 1024 * (t.val / 25) + (y 0).val
    rw [(Arr1.idx_facts t).2.2.2.2.2.2.1]
    omega

end Cert.KernelIdeal.Hand

end
-- ==== Proof.KI.EpValue.lean ====
import proofs.«423802_j62801011802684_3_alg».proof.Proof.Gen.KernelIdeal.Skeleton
import proofs.«423802_j62801011802684_3_alg».proof.Proof.Spec
import proofs.«423802_j62801011802684_3_alg».proof.Proof.KI.Ep
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

theorem ep_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem ep_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem ep_exp_apply {s : Shape} {φ : FTy} (a : FVec Ideal s φ) (i : s.Idx) : exp a i = Ideal.exp (a i) := rfl

theorem ep_sum_rows_then_column (w : FVec Ideal S4x512 .f32) :
    shapeCast S1x1 (multiReduction .add [0] S1 (shapeCast S4x1 (multiReduction .add [1] S4 w 0x00000000#32 reduces_S4x512_S4 (.inl rfl) rfl) shapeCasts_S4_S4x1)
        0x00000000#32 reduces_S4x1_S1 (.inl rfl) rfl) shapeCasts_S1_S1x1 (ix2 (0 : Fin 1) (0 : Fin 1))
      = ∑ b : Fin 4, ∑ t : Fin 512, w (ix2 b t) := by
  rw [shapeCast_a_1a_apply]
  refine (Ideal.multiReduction_add_single _ _ reduces_S4x1_S1 _ _ _).trans ?_
  show ∑ b : Fin 4, shapeCast S4x1 _ shapeCasts_S4_S4x1 (reduces_S4x1_S1.lift (ix1 (0 : Fin 1)) b) = _
  refine Finset.sum_congr rfl fun b _ => ?_
  have e1 : reduces_S4x1_S1.lift (ix1 (0 : Fin 1)) b = ix2 b (0 : Fin 1) := by
    funext c; match c with | ⟨0, _⟩ => rfl | ⟨1, _⟩ => rfl
  rw [e1, ep_shapeCast_a_a1_apply]
  refine (Ideal.multiReduction_add_single _ _ reduces_S4x512_S4 _ _ _).trans ?_
  show ∑ t : Fin 512, w (reduces_S4x512_S4.lift (ix1 b) t) = _
  refine Finset.sum_congr rfl fun t _ => ?_
  have e2 : reduces_S4x512_S4.lift (ix1 b) t = ix2 b t := by
    funext c; match c with | ⟨0, _⟩ => rfl | ⟨1, _⟩ => rfl
  rw [e2]

theorem ep_value (x0 x1 : Vec Ideal S4x512 .f32) (x2 : Vec Ideal S4x1 .f32) (x3 : Vec Ideal S4x512 .i32) :
    k2_pay1 (F := Ideal) x0 x1 x2 x3 (ix2 (0 : Fin 1) (0 : Fin 1))
      = Cert.Spec.lossE (fun b t => x0 (ix2 b t)) (fun b t => x1 (ix2 b t)) (fun b => x2 (ix2 b (0 : Fin 1)))
          (fun b t => FloatOps.sitofp (F := Ideal) .f32 (x3 (ix2 b t))) := by
  unfold k2_pay1 Cert.Spec.lossE
  simp only [shapeCast_self]
  rw [divf_apply, maximumf_apply, broadcast_apply, ep_sum_rows_then_column, ep_sum_rows_then_column]
  refine congrArg₂ Ideal.div ?_ ?_
  · refine Finset.sum_congr rfl fun b _ => Finset.sum_congr rfl fun t _ => ?_
    simp only [mulf_apply, addf_apply, subf_apply, minimumf_apply, maximumf_apply, broadcast_apply, sitofp_apply,
      ep_exp_apply, ep_broadcastTo_a1_ab_apply]
    simp only [Ideal.ofBits_def]
    rw [Ideal.ofBits_zero_f32, zero_sub]
  · rfl

theorem ep_value_out (x0 x1 : Vec Ideal S4x512 .f32) (x2 : Vec Ideal S4x1 .f32) (x3 : Vec Ideal S4x512 .i32) :
    out2_4 (F := Ideal) x0 x1 x2 x3 (ix2 (0 : Fin 1) (0 : Fin 1))
      = Cert.Spec.lossE (fun b t => x0 (ix2 b t)) (fun b t => x1 (ix2 b t)) (fun b => x2 (ix2 b (0 : Fin 1)))
          (fun b t => FloatOps.sitofp (F := Ideal) .f32 (x3 (ix2 b t))) := by
  have hz : (![0, 0] : Fin 2 → ℕ) = fun _ => 0 := by
    funext a; match a with | ⟨0, _⟩ => rfl | ⟨1, _⟩ => rfl
  unfold out2_4
  rw [View.canon_unit_zero hz, View.ld_unit_zero hz, View.ld_unit_zero hz, View.ld_unit_zero hz, View.ld_unit_zero hz]
  exact ep_value x0 x1 x2 x3

end Cert.KernelIdeal.Hand

end
-- ==== Proof.KI.EpArr.lean ====
import proofs.«423802_j62801011802684_3_alg».proof.Proof.KI.EpValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Arr2

-- Reading a whole array through a window at offset zero returns the array.
theorem read_whole {κ : Kind} (b : Ref sig κ) {off : Fin b.ty.shape.rank → ℕ} (h : ∀ a, off a = 0)
    {inb : ∀ a, off a + b.ty.shape.size a ≤ b.ty.shape.size a} (f : BufTy.Contents (Elt F) b.ty) :
    View.read (Elt F) ((Memref.whole b).access (Rect.unit off b.ty.shape.size inb)) f = f :=
  Memref.read_access_unit_zero (Elt F) b (funext h) inb f

section
variable (V : (c : Dev nD) → (b : Ref sig .tc) → Buf (Elt F) ((c : Thread nD τ).loc b))

theorem iblk2_0_whole (c : Dev nD) : (iblk2 V c 0 t2_0 : Vec F S4x512 .f32) = V c main_v7 :=
  read_whole main_v7 (fun a => by fin_cases a <;> decide +kernel) (V c main_v7)

theorem iblk2_1_whole (c : Dev nD) : (iblk2 V c 1 t2_0 : Vec F S4x512 .f32) = V c main_v9 :=
  read_whole main_v9 (fun a => by fin_cases a <;> decide +kernel) (V c main_v9)

theorem iblk2_2_whole (c : Dev nD) : (iblk2 V c 2 t2_0 : Vec F S4x1 .f32) = V c main_v10 :=
  read_whole main_v10 (fun a => by fin_cases a <;> decide +kernel) (V c main_v10)

theorem iblk2_3_whole (c : Dev nD) : (iblk2 V c 3 t2_0 : Vec F S4x512 .i32) = V c main_arg2 :=
  read_whole main_arg2 (fun a => by fin_cases a <;> decide +kernel) (V c main_arg2)

abbrev result2 (c : Dev nD) : Vec F S1x1 .f32 := out2_4 (V c main_v7) (V c main_v9) (V c main_v10) (V c main_arg2)

theorem flushed2_4_eq (c : Dev nD) (t : Fin cfg2.N) :
    (dat2 V c).flushed 4 t = ((cfg2.win 4).blk t).view.read (Elt F) (result2 V c) := by
  obtain rfl : t = t2_0 := fin_N2 t
  show (cfg2.win 4).cut (grid2.coords t2_0) ((dat2 V c).after 4 t2_0) = _
  rw [after2_4, iblk2_0_whole, iblk2_1_whole, iblk2_2_whole, iblk2_3_whole]
  exact (read_whole main_v11 (fun a => by fin_cases a <;> decide +kernel) (result2 V c)).symm

theorem cover2_4_arr (i : S1x1.Idx) : ∃ t : Fin cfg2.N, (cfg2.win 4).flush t = true ∧ i ∈ ((cfg2.win 4).blk t).view.set := by
  refine ⟨t2_0, flush2_4 t2_0, ?_⟩
  show i ∈ ((View.whole main_v11).slice (win2_4.rect t2_0)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

theorem arr2_eq (c : Dev nD) : (dat2 V c).arrAt 4 cfg2.N = result2 V c :=
  (dat2 V c).arrAt_eq_of_cover 4 (result2 V c) (fun t _ => flushed2_4_eq V c t) cover2_4_arr

end

end Arr2

theorem arr2_value (V : (c : Dev nD) → (b : Ref sig .tc) → Buf (Elt Ideal) ((c : Thread nD τ).loc b)) (c : Dev nD) :
    (dat2 (F := Ideal) V c).arrAt 4 cfg2.N (ValueIdx.ix2 (0 : Fin 1) (0 : Fin 1))
      = Cert.Spec.lossE (fun b t => V c main_v7 (ValueIdx.ix2 b t)) (fun b t => V c main_v9 (ValueIdx.ix2 b t))
          (fun b => V c main_v10 (ValueIdx.ix2 b (0 : Fin 1))) (fun b t => FloatOps.sitofp (F := Ideal) .f32 (V c main_arg2 (ValueIdx.ix2 b t))) :=
  (congrFun (Arr2.arr2_eq (F := Ideal) V c) (ValueIdx.ix2 (0 : Fin 1) (0 : Fin 1))).trans
    (ep_value_out (V c main_v7) (V c main_v9) (V c main_v10) (V c main_arg2))

end Cert.KernelIdeal.Hand

end
-- ==== Proof.KI.KValue.lean ====
import proofs.«423802_j62801011802684_3_alg».proof.Proof.KI.HostVals
import proofs.«423802_j62801011802684_3_alg».proof.Proof.KI.LmArr
import proofs.«423802_j62801011802684_3_alg».proof.Proof.KI.LmArr1
import proofs.«423802_j62801011802684_3_alg».proof.Proof.KI.EpArr
import proofs.«423802_j62801011802684_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

theorem kernel_value (c : Dev nD)
    (xr rxr : Fin 4 → Fin 512 → Fin 1024 → ℝ) (Wr rWr : Fin 32000 → Fin 1024 → ℝ) (ids : Fin 4 → Fin 512 → Fin 32000)
    (hx : ∀ b t j, m ((c : Thread nD τ).loc main_arg0) (ix3 b t j) = ((xr b t j : ℝ) : EReal))
    (hrx : ∀ b t j, m ((c : Thread nD τ).loc main_arg4) (ix3 b t j) = ((rxr b t j : ℝ) : EReal))
    (hW : ∀ v j, m ((c : Thread nD τ).loc main_arg5) (ix2 v j) = ((Wr v j : ℝ) : EReal))
    (hrW : ∀ v j, m ((c : Thread nD τ).loc main_arg6) (ix2 v j) = ((rWr v j : ℝ) : EReal))
    (hids : ∀ b t, m ((c : Thread nD τ).loc main_arg1) (ix2 b t) = BitVec.ofNat 32 (ids b t).val) :
    W9 m ρ c (Proc.devRef .tc main_v12) ix0
      = Cert.Spec.lossE (fun b t => ((Cert.Spec.lpR xr Wr ids b t : ℝ) : EReal)) (fun b t => ((Cert.Spec.lpR rxr rWr ids b t : ℝ) : EReal))
          (fun b => m ((c : Thread nD τ).loc main_arg3) (ix1 b))
          (fun b t => FloatOps.sitofp (F := Ideal) .f32 (m ((c : Thread nD τ).loc main_arg2) (ix2 b t))) := by
  rw [W9_v12_at, arr2_value (V7 m ρ) c]
  have h7 : ∀ b t, V7 m ρ c main_v7 (ix2 b t) = ((Cert.Spec.lpR xr Wr ids b t : ℝ) : EReal) := fun b t => by
    rw [V7_v7_at, arr0_value (V3 m ρ) c (fun n j => xr (rowB n) (rowT n) j) Wr (fun n => ids (rowB n) (rowT n))
      (fun n j => (V3_v3_at m ρ c n j).trans (hx _ _ _))
      (fun v j => by rw [V3_arg5 m ρ c]; exact hW v j)
      (fun n => V3_v1_at m ρ c ids hids n) (flat b t)]
    simp only [rowB_flat, rowT_flat]; rfl
  have h9 : ∀ b t, V7 m ρ c main_v9 (ix2 b t) = ((Cert.Spec.lpR rxr rWr ids b t : ℝ) : EReal) := fun b t => by
    rw [V7_v9_at, arr1_value (V5 m ρ) c (fun n j => rxr (rowB n) (rowT n) j) rWr (fun n => ids (rowB n) (rowT n))
      (fun n j => (V5_v5_at m ρ c n j).trans (hrx _ _ _))
      (fun v j => by rw [V5_arg6 m ρ c]; exact hrW v j)
      (fun n => by rw [V5_v1 m ρ c]; exact V3_v1_at m ρ c ids hids n) (flat b t)]
    simp only [rowB_flat, rowT_flat]; rfl
  simp only [h7, h9, V7_v10_at m ρ c, V7_arg2 m ρ c]

end Cert.KernelIdeal.Hand

end
-- ==== Proof.RefReadP.lean ====
import proofs.«423802_j62801011802684_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S4x512x1024, .f32⟩ : BufTy).Contents (Elt F)) (x1 x2 : (⟨S4x512, .i32⟩ : BufTy).Contents (Elt F)) (x3 : (⟨S4, .f32⟩ : BufTy).Contents (Elt F))
  (x4 : (⟨S4x512x1024, .f32⟩ : BufTy).Contents (Elt F)) (x5 x6 : (⟨S32000x1024, .f32⟩ : BufTy).Contents (Elt F))

-- A broadcast of a rank-0 array reads its one element at every index.
theorem bcast0_apply {α : Type} {t : Shape} (h : S_.BroadcastsInDim t ![]) (y : S_.Idx → α) (i : t.Idx) :
    broadcastInDim t ![] h y i = y fun a => a.elim0 :=
  broadcastInDim_apply _ h y i _ fun a => a.elim0

abbrev dropLast (i : S4x512x1.Idx) : S4x512.Idx := fun a => match a with
  | ⟨0, _⟩ => ⟨(i 0).val, (i 0).isLt⟩
  | ⟨1, _⟩ => ⟨(i 1).val, (i 1).isLt⟩
-- Appending a unit axis keeps every element where it was.
theorem bcast_dropLast {α : Type} (y : S4x512.Idx → α) (i : S4x512x1.Idx) :
    broadcastInDim S4x512x1 ![0, 1] bcast_S4x512_S4x512x1_0_1 y i = y (dropLast i) :=
  broadcastInDim_apply _ bcast_S4x512_S4x512x1_0_1 y i (dropLast i) fun a => match a with
    | ⟨0, _⟩ => rfl
    | ⟨1, _⟩ => rfl

abbrev unitLast (i : S4x512x32000.Idx) : S4x512x1.Idx := fun a => match a with
  | ⟨0, _⟩ => ⟨(i 0).val, (i 0).isLt⟩
  | ⟨1, _⟩ => ⟨(i 1).val, (i 1).isLt⟩
  | ⟨2, _⟩ => ⟨0, Nat.one_pos⟩
-- Stretching a unit last axis repeats the row's one element along it.
theorem bcast_unitLast {α : Type} (y : S4x512x1.Idx → α) (i : S4x512x32000.Idx) :
    broadcastInDim S4x512x32000 ![0, 1, 2] bcast_S4x512x1_S4x512x32000_0_1_2 y i = y (unitLast i) :=
  broadcastInDim_apply _ bcast_S4x512x1_S4x512x32000_0_1_2 y i (unitLast i) fun a => match a with
    | ⟨0, _⟩ => rfl
    | ⟨1, _⟩ => rfl
    | ⟨2, _⟩ => rfl

abbrev rowOf (i : S4x512.Idx) : S4x1.Idx := fun a => match a with
  | ⟨0, _⟩ => ⟨(i 0).val, (i 0).isLt⟩
  | ⟨1, _⟩ => ⟨0, Nat.one_pos⟩
-- Stretching a unit second axis repeats each row's one element along it.
theorem bcast_rowOf {α : Type} (y : S4x1.Idx → α) (i : S4x512.Idx) :
    broadcastInDim S4x512 ![0, 1] bcast_S4x1_S4x512_0_1 y i = y (rowOf i) :=
  broadcastInDim_apply _ bcast_S4x1_S4x512_0_1 y i (rowOf i) fun a => match a with
    | ⟨0, _⟩ => rfl
    | ⟨1, _⟩ => rfl

def val_main_v0 (x0 : (⟨S4x512x1024, .f32⟩ : BufTy).Contents (Elt F)) (x5 : (⟨S32000x1024, .f32⟩ : BufTy).Contents (Elt F)) : (⟨S4x512x32000, .f32⟩ : BufTy).Contents (Elt F) :=
  Host.dotGeneral dot_S4x512x1024_S32000x1024_S4x512x32000_2_1_01_0_n_n none (x0) (x5)
abbrev lidx_main_v0 (i : S4x512x32000.Idx) (k : Fin 1024) : S4x512x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v0 (i : S4x512x32000.Idx) (k : Fin 1024) : S32000x1024.Idx := fun a => match a with
  | ⟨0, _⟩ => ⟨(i 2).val, (i 2).isLt⟩
  | ⟨1, _⟩ => ⟨k.val, k.isLt⟩

def val_main_call0_cst : (⟨S_, .f32⟩ : BufTy).Contents (Elt F) :=
  constant S_ .f32 0xFF800000#32
def val_main_call0_v0 (x0 : (⟨S4x512x1024, .f32⟩ : BufTy).Contents (Elt F)) (x5 : (⟨S32000x1024, .f32⟩ : BufTy).Contents (Elt F)) : (⟨S4x512, .f32⟩ : BufTy).Contents (Elt F) :=
  Host.reduce FloatOps.maximumf (val_main_v0 (F := F) x0 x5) (val_main_call0_cst (F := F)) reducesTo_S4x512x32000_S4x512_d2 h_S_

def val_main_call0_cst_0 : (⟨S_, .f32⟩ : BufTy).Contents (Elt F) :=
  constant S_ .f32 0xFF800000#32
def val_main_call0_v1 : (⟨S4x512, .f32⟩ : BufTy).Contents (Elt F) :=
  broadcastInDim S4x512 ![] bcast_S_S4x512 (val_main_call0_cst_0 (F := F))

def val_main_call0_v2 (x0 : (⟨S4x512x1024, .f32⟩ : BufTy).Contents (Elt F)) (x5 : (⟨S32000x1024, .f32⟩ : BufTy).Contents (Elt F)) : (⟨S4x512, .f32⟩ : BufTy).Contents (Elt F) :=
  maximumf (val_main_call0_v1 (F := F)) (val_main_call0_v0 (F := F) x0 x5)
def val_main_call0_v3 (x0 : (⟨S4x512x1024, .f32⟩ : BufTy).Contents (Elt F)) (x5 : (⟨S32000x1024, .f32⟩ : BufTy).Contents (Elt F)) : (⟨S4x512x1, .f32⟩ : BufTy).Contents (Elt F) :=
  broadcastInDim S4x512x1 ![0, 1] bcast_S4x512_S4x512x1_0_1 (val_main_call0_v2 (F := F) x0 x5)

def val_main_call0_v4 (x0 : (⟨S4x512x1024, .f32⟩ : BufTy).Contents (Elt F)) (x5 : (⟨S32000x1024, .f32⟩ : BufTy).Contents (Elt F)) : (⟨S4x512x32000, .f32⟩ : BufTy).Contents (Elt F) :=
  broadcastInDim S4x512x32000 ![0, 1, 2] bcast_S4x512x1_S4x512x32000_0_1_2 (val_main_call0_v3 (F := F) x0 x5)

def val_main_call0_v5 (x0 : (⟨S4x512x1024, .f32⟩ : BufTy).Contents (Elt F)) (x5 : (⟨S32000x1024, .f32⟩ : BufTy).Contents (Elt F)) : (⟨S4x512x32000, .f32⟩ : BufTy).Contents (Elt F) :=
  subf (val_main_v0 (F := F) x0 x5) (val_main_call0_v4 (F := F) x0 x5)
def val_main_call0_v6 (x0 : (⟨S4x512x1024, .f32⟩ : BufTy).Contents (Elt F)) (x5 : (⟨S32000x1024, .f32⟩ : BufTy).Contents (Elt F)) : (⟨S4x512x32000, .f32⟩ : BufTy).Contents (Elt F) :=
  Host.exp (val_main_call0_v5 (F := F) x0 x5)
def val_main_call0_cst_1 : (⟨S_, .f32⟩ : BufTy).Contents (Elt F) :=
  constant S_ .f32 0x00000000#32
def val_main_call0_v7 (x0 : (⟨S4x512x1024, .f32⟩ : BufTy).Contents (Elt F)) (x5 : (⟨S32000x1024, .f32⟩ : BufTy).Contents (Elt F)) : (⟨S4x512, .f32⟩ : BufTy).Contents (Elt F) :=
  Host.reduceAdd (val_main_call0_v6 (F := F) x0 x5) (val_main_call0_cst_1 (F := F)) reducesTo_S4x512x32000_S4x512_d2 h_S_
abbrev idx_main_call0_v7 (i : S4x512.Idx) (k : Fin 32000) : S4x512x32000.Idx := fun a => match a with
  | ⟨0, _⟩ => ⟨(i 0).val, (i 0).isLt⟩
  | ⟨1, _⟩ => ⟨(i 1).val, (i 1).isLt⟩
  | ⟨2, _⟩ => ⟨k.val, k.isLt⟩

def val_main_call0_v8 (x0 : (⟨S4x512x1024, .f32⟩ : BufTy).Contents (Elt F)) (x5 : (⟨S32000x1024, .f32⟩ : BufTy).Contents (Elt F)) : (⟨S4x512x1, .f32⟩ : BufTy).Contents (Elt F) :=
  broadcastInDim S4x512x1 ![0, 1] bcast_S4x512_S4x512x1_0_1 (val_main_call0_v7 (F := F) x0 x5)

def val_main_call0_v9 (x0 : (⟨S4x512x1024, .f32⟩ : BufTy).Contents (Elt F)) (x5 : (⟨S32000x1024, .f32⟩ : BufTy).Contents (Elt F)) : (⟨S4x512x1, .f32⟩ : BufTy).Contents (Elt F) :=
  Host.log (val_main_call0_v8 (F := F) x0 x5)
def val_main_call0_v10 (x0 : (⟨S4x512x1024, .f32⟩ : BufTy).Contents (Elt F)) (x5 : (⟨S32000x1024, .f32⟩ : BufTy).Contents (Elt F)) : (⟨S4x512x32000, .f32⟩ : BufTy).Contents (Elt F) :=
  broadcastInDim S4x512x32000 ![0, 1, 2] bcast_S4x512x1_S4x512x32000_0_1_2 (val_main_call0_v9 (F := F) x0 x5)

def val_main_v1 (x0 : (⟨S4x512x1024, .f32⟩ : BufTy).Contents (Elt F)) (x5 : (⟨S32000x1024, .f32⟩ : BufTy).Contents (Elt F)) : (⟨S4x512x32000, .f32⟩ : BufTy).Contents (Elt F) :=
  subf (val_main_call0_v5 (F := F) x0 x5) (val_main_call0_v10 (F := F) x0 x5)
def val_main_v2 (x1 : (⟨S4x512, .i32⟩ : BufTy).Contents (Elt F)) : (⟨S4x512x1, .i32⟩ : BufTy).Contents (Elt F) :=
  broadcastInDim S4x512x1 ![0, 1] bcast_S4x512_S4x512x1_0_1 (x1)

def val_main_call1_c : (⟨S_, .i32⟩ : BufTy).Contents (Elt F) :=
  constantI S_ 32 0#32
def val_main_call1_v0 : (⟨S4x512x1, .i32⟩ : BufTy).Contents (Elt F) :=
  broadcastInDim S4x512x1 ![] bcast_S_S4x512x1 (val_main_call1_c (F := F))

def val_main_call1_v1 (x1 : (⟨S4x512, .i32⟩ : BufTy).Contents (Elt F)) : (⟨S4x512x1, .i1⟩ : BufTy).Contents (Elt F) :=
  cmpi .slt (val_main_v2 (F := F) x1) (val_main_call1_v0 (F := F))
def val_main_call1_c_0 : (⟨S_, .i32⟩ : BufTy).Contents (Elt F) :=
  constantI S_ 32 32000#32
def val_main_call1_v2 : (⟨S4x512x1, .i32⟩ : BufTy).Contents (Elt F) :=
  broadcastInDim S4x512x1 ![] bcast_S_S4x512x1 (val_main_call1_c_0 (F := F))
def val_main_call1_v3 (x1 : (⟨S4x512, .i32⟩ : BufTy).Contents (Elt F)) : (⟨S4x512x1, .i32⟩ : BufTy).Contents (Elt F) :=
  addi (val_main_v2 (F := F) x1) (val_main_call1_v2 (F := F))
def val_main_call1_v4 (x1 : (⟨S4x512, .i32⟩ : BufTy).Contents (Elt F)) : (⟨S4x512x1, .i32⟩ : BufTy).Contents (Elt F) :=
  select (val_main_call1_v1 (F := F) x1) (val_main_call1_v3 (F := F) x1) (val_main_v2 (F := F) x1)
def val_main_call1_v5 (x1 : (⟨S4x512, .i32⟩ : BufTy).Contents (Elt F)) : (⟨S4x512x1x1, .i32⟩ : BufTy).Contents (Elt F) :=
  shapeCast _ (val_main_call1_v4 (F := F) x1) shapeCasts_S4x512x1_S4x512x1x1
abbrev idx_main_call1_v5 (i : S4x512x1x1.Idx) : S4x512x1.Idx := fun a => match a with
  | ⟨0, _⟩ => ⟨((((i 0).val * 512 + (i 1).val) * 1 + (i 2).val) * 1 + (i 3).val) / 512, by have h0 : (i 0).val < 4 := (i 0).isLt; have h1 : (i 1).val < 512 := (i 1).isLt; have h2 : (i 2).val < 1 := (i 2).isLt; have h3 : (i 3).val < 1 := (i 3).isLt; show ((((i 0).val * 512 + (i 1).val) * 1 + (i 2).val) * 1 + (i 3).val) / 512 < 4; omega⟩
  | ⟨1, _⟩ => ⟨((((i 0).val * 512 + (i 1).val) * 1 + (i 2).val) * 1 + (i 3).val) / 1 % 512, by have h0 : (i 0).val < 4 := (i 0).isLt; have h1 : (i 1).val < 512 := (i 1).isLt; have h2 : (i 2).val < 1 := (i 2).isLt; have h3 : (i 3).val < 1 := (i 3).isLt; show ((((i 0).val * 512 + (i 1).val) * 1 + (i 2).val) * 1 + (i 3).val) / 1 % 512 < 512; omega⟩
  | ⟨2, _⟩ => ⟨0, Nat.one_pos⟩
theorem val_main_call1_v5_apply (i : S4x512x1x1.Idx) :
    val_main_call1_v5 (F := F) x1 i = val_main_call1_v4 (F := F) x1 (idx_main_call1_v5 i) := by
  unfold val_main_call1_v5
  generalize val_main_call1_v4 (F := F) x1 = y
  exact shapeCast_apply y shapeCasts_S4x512x1_S4x512x1x1 i (idx_main_call1_v5 i)
    (by rewrite [Shape.rowMajor_val_three, Shape.rowMajor_val_four]; have h0 : (i 0).val < 4 := (i 0).isLt; have h1 : (i 1).val < 512 := (i 1).isLt; have h2 : (i 2).val < 1 := (i 2).isLt; have h3 : (i 3).val < 1 := (i 3).isLt; show (((((i 0).val * 512 + (i 1).val) * 1 + (i 2).val) * 1 + (i 3).val) / 512 * 512 + ((((i 0).val * 512 + (i 1).val) * 1 + (i 2).val) * 1 + (i 3).val) / 1 % 512) * 1 + 0 = (((i 0).val * 512 + (i 1).val) * 1 + (i 2).val) * 1 + (i 3).val; omega)

def val_main_call1_c_1 : (⟨S1, .i32⟩ : BufTy).Contents (Elt F) :=
  constantI S1 32 31999#32
def val_main_call1_c_2 : (⟨S_, .i32⟩ : BufTy).Contents (Elt F) :=
  constantI S_ 32 0#32
def val_main_call1_v6 : (⟨S4x512x1x1, .i32⟩ : BufTy).Contents (Elt F) :=
  broadcastInDim S4x512x1x1 ![] bcast_S_S4x512x1x1 (val_main_call1_c_2 (F := F))

def val_main_call1_v7 (x1 : (⟨S4x512, .i32⟩ : BufTy).Contents (Elt F)) : (⟨S4x512x1x1, .i1⟩ : BufTy).Contents (Elt F) :=
  cmpi .sge (val_main_call1_v5 (F := F) x1) (val_main_call1_v6 (F := F))
def val_main_call1_v8 : (⟨S1x1x1x1, .i32⟩ : BufTy).Contents (Elt F) :=
  broadcastInDim S1x1x1x1 ![3] bcast_S1_S1x1x1x1_3 (val_main_call1_c_1 (F := F))
abbrev idx_main_call1_v8 (i : S1x1x1x1.Idx) : S1.Idx := fun a => match a with
  | ⟨0, _⟩ => ⟨0, Nat.one_pos⟩
theorem val_main_call1_v8_apply (i : S1x1x1x1.Idx) :
    val_main_call1_v8 (F := F) i = val_main_call1_c_1 (F := F) (idx_main_call1_v8 i) := by
  unfold val_main_call1_v8
  generalize val_main_call1_c_1 (F := F) = y
  exact broadcastInDim_apply _ bcast_S1_S1x1x1x1_3 y i (idx_main_call1_v8 i) (fun a => match a with
    | ⟨0, _⟩ => rfl)

def val_main_call1_v9 : (⟨S4x512x1x1, .i32⟩ : BufTy).Contents (Elt F) :=
  broadcastInDim S4x512x1x1 ![0, 1, 2, 3] bcast_S1x1x1x1_S4x512x1x1_0_1_2_3 (val_main_call1_v8 (F := F))
abbrev idx_main_call1_v9 (i : S4x512x1x1.Idx) : S1x1x1x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
theorem val_main_call1_v9_apply (i : S4x512x1x1.Idx) :
    val_main_call1_v9 (F := F) i = val_main_call1_v8 (F := F) (idx_main_call1_v9 i) := by
  unfold val_main_call1_v9
  generalize val_main_call1_v8 (F := F) = y
  exact broadcastInDim_apply _ bcast_S1x1x1x1_S4x512x1x1_0_1_2_3 y i (idx_main_call1_v9 i) (fun a => match a with
    | ⟨0, _⟩ => rfl
    | ⟨1, _⟩ => rfl
    | ⟨2, _⟩ => rfl
    | ⟨3, _⟩ => rfl)

def val_main_call1_v10 (x1 : (⟨S4x512, .i32⟩ : BufTy).Contents (Elt F)) : (⟨S4x512x1x1, .i1⟩ : BufTy).Contents (Elt F) :=
  cmpi .sle (val_main_call1_v5 (F := F) x1) (val_main_call1_v9 (F := F))
def val_main_call1_v11 (x1 : (⟨S4x512, .i32⟩ : BufTy).Contents (Elt F)) : (⟨S4x512x1x1, .i1⟩ : BufTy).Contents (Elt F) :=
  andi (val_main_call1_v7 (F := F) x1) (val_main_call1_v10 (F := F) x1)
def val_main_call1_c_3 : (⟨S_, .i1⟩ : BufTy).Contents (Elt F) :=
  constantI S_ 1 1#1
def val_main_call1_v12 (x1 : (⟨S4x512, .i32⟩ : BufTy).Contents (Elt F)) : (⟨S4x512x1, .i1⟩ : BufTy).Contents (Elt F) :=
  Host.reduce IntOp.andi (val_main_call1_v11 (F := F) x1) (val_main_call1_c_3 (F := F)) reducesTo_S4x512x1x1_S4x512x1_d3 h_S_

def val_main_call1_v13 (x0 : (⟨S4x512x1024, .f32⟩ : BufTy).Contents (Elt F)) (x1 : (⟨S4x512, .i32⟩ : BufTy).Contents (Elt F)) (x5 : (⟨S32000x1024, .f32⟩ : BufTy).Contents (Elt F)) : (⟨S4x512x1, .f32⟩ : BufTy).Contents (Elt F) :=
  Host.gather gather_S4x512x32000_S4x512x1x1_S4x512x1_n_2_01_01_2_3_111 (val_main_v1 (F := F) x0 x5) (val_main_call1_v5 (F := F) x1)

def val_main_call1_cst : (⟨S_, .f32⟩ : BufTy).Contents (Elt F) :=
  constant S_ .f32 0x7FC00000#32
def val_main_call1_v14 : (⟨S4x512x1, .f32⟩ : BufTy).Contents (Elt F) :=
  broadcastInDim S4x512x1 ![] bcast_S_S4x512x1 (val_main_call1_cst (F := F))
def val_main_v3 (x0 : (⟨S4x512x1024, .f32⟩ : BufTy).Contents (Elt F)) (x1 : (⟨S4x512, .i32⟩ : BufTy).Contents (Elt F)) (x5 : (⟨S32000x1024, .f32⟩ : BufTy).Contents (Elt F)) : (⟨S4x512x1, .f32⟩ : BufTy).Contents (Elt F) :=
  select (val_main_call1_v12 (F := F) x1) (val_main_call1_v13 (F := F) x0 x1 x5) (val_main_call1_v14 (F := F))
def val_main_v4 (x0 : (⟨S4x512x1024, .f32⟩ : BufTy).Contents (Elt F)) (x1 : (⟨S4x512, .i32⟩ : BufTy).Contents (Elt F)) (x5 : (⟨S32000x1024, .f32⟩ : BufTy).Contents (Elt F)) : (⟨S4x512, .f32⟩ : BufTy).Contents (Elt F) :=
  shapeCast _ (val_main_v3 (F := F) x0 x1 x5) shapeCasts_S4x512x1_S4x512
abbrev idx_main_v4 (i : S4x512.Idx) : S4x512x1.Idx := fun a => match a with
  | ⟨0, _⟩ => ⟨((i 0).val * 512 + (i 1).val) / 512, by have h0 : (i 0).val < 4 := (i 0).isLt; have h1 : (i 1).val < 512 := (i 1).isLt; show ((i 0).val * 512 + (i 1).val) / 512 < 4; omega⟩
  | ⟨1, _⟩ => ⟨((i 0).val * 512 + (i 1).val) / 1 % 512, by have h0 : (i 0).val < 4 := (i 0).isLt; have h1 : (i 1).val < 512 := (i 1).isLt; show ((i 0).val * 512 + (i 1).val) / 1 % 512 < 512; omega⟩
  | ⟨2, _⟩ => ⟨0, Nat.one_pos⟩
theorem val_main_v4_apply (i : S4x512.Idx) :
    val_main_v4 (F := F) x0 x1 x5 i = val_main_v3 (F := F) x0 x1 x5 (idx_main_v4 i) := by
  unfold val_main_v4
  generalize val_main_v3 (F := F) x0 x1 x5 = y
  exact shapeCast_apply y shapeCasts_S4x512x1_S4x512 i (idx_main_v4 i)
    (by rewrite [Shape.rowMajor_val_three, Shape.rowMajor_val_two]; have h0 : (i 0).val < 4 := (i 0).isLt; have h1 : (i 1).val < 512 := (i 1).isLt; show (((i 0).val * 512 + (i 1).val) / 512 * 512 + ((i 0).val * 512 + (i 1).val) / 1 % 512) * 1 + 0 = (i 0).val * 512 + (i 1).val; omega)

def val_main_v6 (x4 : (⟨S4x512x1024, .f32⟩ : BufTy).Contents (Elt F)) (x6 : (⟨S32000x1024, .f32⟩ : BufTy).Contents (Elt F)) : (⟨S4x512x32000, .f32⟩ : BufTy).Contents (Elt F) :=
  val_main_v1 (F := F) x4 x6

def val_main_v9 (x1 : (⟨S4x512, .i32⟩ : BufTy).Contents (Elt F)) (x4 : (⟨S4x512x1024, .f32⟩ : BufTy).Contents (Elt F)) (x6 : (⟨S32000x1024, .f32⟩ : BufTy).Contents (Elt F)) : (⟨S4x512, .f32⟩ : BufTy).Contents (Elt F) :=
  val_main_v4 (F := F) x4 x1 x6
def val_main_v10 (x0 : (⟨S4x512x1024, .f32⟩ : BufTy).Contents (Elt F)) (x1 : (⟨S4x512, .i32⟩ : BufTy).Contents (Elt F)) (x5 : (⟨S32000x1024, .f32⟩ : BufTy).Contents (Elt F)) : (⟨S4x512, .f32⟩ : BufTy).Contents (Elt F) :=
  subf (val_main_v4 (F := F) x0 x1 x5) (val_main_v4 (F := F) x0 x1 x5)
def val_main_v11 (x0 : (⟨S4x512x1024, .f32⟩ : BufTy).Contents (Elt F)) (x1 : (⟨S4x512, .i32⟩ : BufTy).Contents (Elt F)) (x5 : (⟨S32000x1024, .f32⟩ : BufTy).Contents (Elt F)) : (⟨S4x512, .f32⟩ : BufTy).Contents (Elt F) :=
  Host.exp (val_main_v10 (F := F) x0 x1 x5)
def val_main_v12 (x3 : (⟨S4, .f32⟩ : BufTy).Contents (Elt F)) : (⟨S4x1, .f32⟩ : BufTy).Contents (Elt F) :=
  broadcastInDim S4x1 ![0] bcast_S4_S4x1_0 (x3)
abbrev idx_main_v12 (i : S4x1.Idx) : S4.Idx := fun a => match a with
  | ⟨0, _⟩ => ⟨(i 0).val, (i 0).isLt⟩
theorem val_main_v12_apply (i : S4x1.Idx) :
    val_main_v12 (F := F) x3 i = x3 (idx_main_v12 i) := by
  unfold val_main_v12
  exact broadcastInDim_apply _ bcast_S4_S4x1_0 x3 i (idx_main_v12 i) (fun a => match a with
    | ⟨0, _⟩ => rfl)

def val_main_cst : (⟨S_, .f32⟩ : BufTy).Contents (Elt F) :=
  constant S_ .f32 0x3F4CCCCD#32
def val_main_cst_0 : (⟨S_, .f32⟩ : BufTy).Contents (Elt F) :=
  constant S_ .f32 0x3F99999A#32
def val_main_call4_v0 : (⟨S_, .f32⟩ : BufTy).Contents (Elt F) :=
  id (val_main_cst (F := F))
def val_main_call4_v1 : (⟨S4x512, .f32⟩ : BufTy).Contents (Elt F) :=
  broadcastInDim S4x512 ![] bcast_S_S4x512 (val_main_call4_v0 (F := F))

def val_main_call4_v2 (x0 : (⟨S4x512x1024, .f32⟩ : BufTy).Contents (Elt F)) (x1 : (⟨S4x512, .i32⟩ : BufTy).Contents (Elt F)) (x5 : (⟨S32000x1024, .f32⟩ : BufTy).Contents (Elt F)) : (⟨S4x512, .f32⟩ : BufTy).Contents (Elt F) :=
  maximumf (val_main_call4_v1 (F := F)) (val_main_v11 (F := F) x0 x1 x5)
def val_main_call4_v3 : (⟨S_, .f32⟩ : BufTy).Contents (Elt F) :=
  id (val_main_cst_0 (F := F))
def val_main_call4_v4 : (⟨S4x512, .f32⟩ : BufTy).Contents (Elt F) :=
  broadcastInDim S4x512 ![] bcast_S_S4x512 (val_main_call4_v3 (F := F))

def val_main_v13 (x0 : (⟨S4x512x1024, .f32⟩ : BufTy).Contents (Elt F)) (x1 : (⟨S4x512, .i32⟩ : BufTy).Contents (Elt F)) (x5 : (⟨S32000x1024, .f32⟩ : BufTy).Contents (Elt F)) : (⟨S4x512, .f32⟩ : BufTy).Contents (Elt F) :=
  minimumf (val_main_call4_v4 (F := F)) (val_main_call4_v2 (F := F) x0 x1 x5)
def val_main_v14 (x3 : (⟨S4, .f32⟩ : BufTy).Contents (Elt F)) : (⟨S4x512, .f32⟩ : BufTy).Contents (Elt F) :=
  broadcastInDim S4x512 ![0, 1] bcast_S4x1_S4x512_0_1 (val_main_v12 (F := F) x3)

def val_main_v15 (x0 : (⟨S4x512x1024, .f32⟩ : BufTy).Contents (Elt F)) (x1 : (⟨S4x512, .i32⟩ : BufTy).Contents (Elt F)) (x3 : (⟨S4, .f32⟩ : BufTy).Contents (Elt F)) (x5 : (⟨S32000x1024, .f32⟩ : BufTy).Contents (Elt F)) : (⟨S4x512, .f32⟩ : BufTy).Contents (Elt F) :=
  mulf (val_main_v11 (F := F) x0 x1 x5) (val_main_v14 (F := F) x3)
def val_main_v16 (x3 : (⟨S4, .f32⟩ : BufTy).Contents (Elt F)) : (⟨S4x512, .f32⟩ : BufTy).Contents (Elt F) :=
  broadcastInDim S4x512 ![0, 1] bcast_S4x1_S4x512_0_1 (val_main_v12 (F := F) x3)

def val_main_v17 (x0 : (⟨S4x512x1024, .f32⟩ : BufTy).Contents (Elt F)) (x1 : (⟨S4x512, .i32⟩ : BufTy).Contents (Elt F)) (x3 : (⟨S4, .f32⟩ : BufTy).Contents (Elt F)) (x5 : (⟨S32000x1024, .f32⟩ : BufTy).Contents (Elt F)) : (⟨S4x512, .f32⟩ : BufTy).Contents (Elt F) :=
  mulf (val_main_v13 (F := F) x0 x1 x5) (val_main_v16 (F := F) x3)
def val_main_v18 (x0 : (⟨S4x512x1024, .f32⟩ : BufTy).Contents (Elt F)) (x1 : (⟨S4x512, .i32⟩ : BufTy).Contents (Elt F)) (x3 : (⟨S4, .f32⟩ : BufTy).Contents (Elt F)) (x5 : (⟨S32000x1024, .f32⟩ : BufTy).Contents (Elt F)) : (⟨S4x512, .f32⟩ : BufTy).Contents (Elt F) :=
  minimumf (val_main_v15 (F := F) x0 x1 x3 x5) (val_main_v17 (F := F) x0 x1 x3 x5)
def val_main_v19 (x0 : (⟨S4x512x1024, .f32⟩ : BufTy).Contents (Elt F)) (x1 : (⟨S4x512, .i32⟩ : BufTy).Contents (Elt F)) (x3 : (⟨S4, .f32⟩ : BufTy).Contents (Elt F)) (x5 : (⟨S32000x1024, .f32⟩ : BufTy).Contents (Elt F)) : (⟨S4x512, .f32⟩ : BufTy).Contents (Elt F) :=
  Host.negf (val_main_v18 (F := F) x0 x1 x3 x5)
def val_main_v20 (x0 : (⟨S4x512x1024, .f32⟩ : BufTy).Contents (Elt F)) (x1 : (⟨S4x512, .i32⟩ : BufTy).Contents (Elt F)) (x4 : (⟨S4x512x1024, .f32⟩ : BufTy).Contents (Elt F)) (x5 x6 : (⟨S32000x1024, .f32⟩ : BufTy).Contents (Elt F)) : (⟨S4x512, .f32⟩ : BufTy).Contents (Elt F) :=
  subf (val_main_v9 (F := F) x1 x4 x6) (val_main_v4 (F := F) x0 x1 x5)
def val_main_v21 (x0 : (⟨S4x512x1024, .f32⟩ : BufTy).Contents (Elt F)) (x1 : (⟨S4x512, .i32⟩ : BufTy).Contents (Elt F)) (x4 : (⟨S4x512x1024, .f32⟩ : BufTy).Contents (Elt F)) (x5 x6 : (⟨S32000x1024, .f32⟩ : BufTy).Contents (Elt F)) : (⟨S4x512, .f32⟩ : BufTy).Contents (Elt F) :=
  Host.exp (val_main_v20 (F := F) x0 x1 x4 x5 x6)
def val_main_v22 (x0 : (⟨S4x512x1024, .f32⟩ : BufTy).Contents (Elt F)) (x1 : (⟨S4x512, .i32⟩ : BufTy).Contents (Elt F)) (x4 : (⟨S4x512x1024, .f32⟩ : BufTy).Contents (Elt F)) (x5 x6 : (⟨S32000x1024, .f32⟩ : BufTy).Contents (Elt F)) : (⟨S4x512, .f32⟩ : BufTy).Contents (Elt F) :=
  subf (val_main_v21 (F := F) x0 x1 x4 x5 x6) (val_main_v20 (F := F) x0 x1 x4 x5 x6)
def val_main_cst_1 : (⟨S_, .f32⟩ : BufTy).Contents (Elt F) :=
  constant S_ .f32 0x3F800000#32
def val_main_v23 : (⟨S4x512, .f32⟩ : BufTy).Contents (Elt F) :=
  broadcastInDim S4x512 ![] bcast_S_S4x512 (val_main_cst_1 (F := F))

def val_main_v24 (x0 : (⟨S4x512x1024, .f32⟩ : BufTy).Contents (Elt F)) (x1 : (⟨S4x512, .i32⟩ : BufTy).Contents (Elt F)) (x4 : (⟨S4x512x1024, .f32⟩ : BufTy).Contents (Elt F)) (x5 x6 : (⟨S32000x1024, .f32⟩ : BufTy).Contents (Elt F)) : (⟨S4x512, .f32⟩ : BufTy).Contents (Elt F) :=
  subf (val_main_v22 (F := F) x0 x1 x4 x5 x6) (val_main_v23 (F := F))
def val_main_cst_2 : (⟨S_, .f32⟩ : BufTy).Contents (Elt F) :=
  constant S_ .f32 0x3DCCCCCD#32
def val_main_v25 : (⟨S4x512, .f32⟩ : BufTy).Contents (Elt F) :=
  broadcastInDim S4x512 ![] bcast_S_S4x512 (val_main_cst_2 (F := F))

def val_main_v26 (x0 : (⟨S4x512x1024, .f32⟩ : BufTy).Contents (Elt F)) (x1 : (⟨S4x512, .i32⟩ : BufTy).Contents (Elt F)) (x4 : (⟨S4x512x1024, .f32⟩ : BufTy).Contents (Elt F)) (x5 x6 : (⟨S32000x1024, .f32⟩ : BufTy).Contents (Elt F)) : (⟨S4x512, .f32⟩ : BufTy).Contents (Elt F) :=
  mulf (val_main_v25 (F := F)) (val_main_v24 (F := F) x0 x1 x4 x5 x6)
def val_main_v27 (x0 : (⟨S4x512x1024, .f32⟩ : BufTy).Contents (Elt F)) (x1 : (⟨S4x512, .i32⟩ : BufTy).Contents (Elt F)) (x3 : (⟨S4, .f32⟩ : BufTy).Contents (Elt F)) (x4 : (⟨S4x512x1024, .f32⟩ : BufTy).Contents (Elt F)) (x5 x6 : (⟨S32000x1024, .f32⟩ : BufTy).Contents (Elt F)) : (⟨S4x512, .f32⟩ : BufTy).Contents (Elt F) :=
  addf (val_main_v19 (F := F) x0 x1 x3 x5) (val_main_v26 (F := F) x0 x1 x4 x5 x6)
def val_main_v28 (x2 : (⟨S4x512, .i32⟩ : BufTy).Contents (Elt F)) : (⟨S4x512, .f32⟩ : BufTy).Contents (Elt F) :=
  sitofp .f32 (x2)
def val_main_v29 (x0 : (⟨S4x512x1024, .f32⟩ : BufTy).Contents (Elt F)) (x1 x2 : (⟨S4x512, .i32⟩ : BufTy).Contents (Elt F)) (x3 : (⟨S4, .f32⟩ : BufTy).Contents (Elt F)) (x4 : (⟨S4x512x1024, .f32⟩ : BufTy).Contents (Elt F)) (x5 x6 : (⟨S32000x1024, .f32⟩ : BufTy).Contents (Elt F)) : (⟨S4x512, .f32⟩ : BufTy).Contents (Elt F) :=
  mulf (val_main_v27 (F := F) x0 x1 x3 x4 x5 x6) (val_main_v28 (F := F) x2)
def val_main_cst_3 : (⟨S_, .f32⟩ : BufTy).Contents (Elt F) :=
  constant S_ .f32 0x00000000#32
def val_main_v30 (x0 : (⟨S4x512x1024, .f32⟩ : BufTy).Contents (Elt F)) (x1 x2 : (⟨S4x512, .i32⟩ : BufTy).Contents (Elt F)) (x3 : (⟨S4, .f32⟩ : BufTy).Contents (Elt F)) (x4 : (⟨S4x512x1024, .f32⟩ : BufTy).Contents (Elt F)) (x5 x6 : (⟨S32000x1024, .f32⟩ : BufTy).Contents (Elt F)) : (⟨S_, .f32⟩ : BufTy).Contents (Elt F) :=
  Host.reduceAdd (val_main_v29 (F := F) x0 x1 x2 x3 x4 x5 x6) (val_main_cst_3 (F := F)) reducesTo_S4x512_S_d0_1 h_S_

def val_main_cst_4 : (⟨S_, .f32⟩ : BufTy).Contents (Elt F) :=
  constant S_ .f32 0x00000000#32
def val_main_v31 (x2 : (⟨S4x512, .i32⟩ : BufTy).Contents (Elt F)) : (⟨S_, .f32⟩ : BufTy).Contents (Elt F) :=
  Host.reduceAdd (val_main_v28 (F := F) x2) (val_main_cst_4 (F := F)) reducesTo_S4x512_S_d0_1 h_S_

def val_main_cst_5 : (⟨S_, .f32⟩ : BufTy).Contents (Elt F) :=
  constant S_ .f32 0x3F800000#32
def val_main_v32 (x2 : (⟨S4x512, .i32⟩ : BufTy).Contents (Elt F)) : (⟨S_, .f32⟩ : BufTy).Contents (Elt F) :=
  maximumf (val_main_v31 (F := F) x2) (val_main_cst_5 (F := F))
def val_main_v33 (x0 : (⟨S4x512x1024, .f32⟩ : BufTy).Contents (Elt F)) (x1 x2 : (⟨S4x512, .i32⟩ : BufTy).Contents (Elt F)) (x3 : (⟨S4, .f32⟩ : BufTy).Contents (Elt F)) (x4 : (⟨S4x512x1024, .f32⟩ : BufTy).Contents (Elt F)) (x5 x6 : (⟨S32000x1024, .f32⟩ : BufTy).Contents (Elt F)) : (⟨S_, .f32⟩ : BufTy).Contents (Elt F) :=
  Host.divf (val_main_v30 (F := F) x0 x1 x2 x3 x4 x5 x6) (val_main_v32 (F := F) x2)
section
variable (x0 : (⟨S4x512x1024, .f32⟩ : BufTy).Contents (Elt Ideal)) (x1 x2 : (⟨S4x512, .i32⟩ : BufTy).Contents (Elt Ideal)) (x3 : (⟨S4, .f32⟩ : BufTy).Contents (Elt Ideal))
  (x4 : (⟨S4x512x1024, .f32⟩ : BufTy).Contents (Elt Ideal)) (x5 x6 : (⟨S32000x1024, .f32⟩ : BufTy).Contents (Elt Ideal))

theorem val_main_v0_apply (i : S4x512x32000.Idx) :
    val_main_v0 (F := Ideal) x0 x5 i = ∑ k : Fin 1024, x0 (lidx_main_v0 i k) * x5 (ridx_main_v0 i k) := by
  unfold val_main_v0
  simp only [Host.dotGeneral]
  rw [Ideal.dotGeneral_apply, ← Equiv.sum_comp (ValueIdx.contrEquiv1 dot_S4x512x1024_S32000x1024_S4x512x32000_2_1_01_0_n_n 1024 rfl rfl).symm]
  refine Finset.sum_congr rfl fun k _ => ?_
  have hk := ValueIdx.contrEquiv1_symm_val dot_S4x512x1024_S32000x1024_S4x512x32000_2_1_01_0_n_n 1024 rfl rfl k
  have el : dot_S4x512x1024_S32000x1024_S4x512x32000_2_1_01_0_n_n.lhsIdx i ((ValueIdx.contrEquiv1 dot_S4x512x1024_S32000x1024_S4x512x32000_2_1_01_0_n_n 1024 rfl rfl).symm k) = lidx_main_v0 i k := funext fun a => Fin.ext (by
    match a with
    | ⟨0, _⟩ => rfl
    | ⟨1, _⟩ => rfl
    | ⟨2, _⟩ => exact hk)
  have er : dot_S4x512x1024_S32000x1024_S4x512x32000_2_1_01_0_n_n.rhsIdx i ((ValueIdx.contrEquiv1 dot_S4x512x1024_S32000x1024_S4x512x32000_2_1_01_0_n_n 1024 rfl rfl).symm k) = ridx_main_v0 i k := funext fun a => Fin.ext (by
    match a with
    | ⟨0, _⟩ => rfl
    | ⟨1, _⟩ => exact hk)
  rw [el, er]

theorem val_main_call0_v7_apply (i : S4x512.Idx) :
    val_main_call0_v7 (F := Ideal) x0 x5 i = (val_main_call0_cst_1 (F := Ideal)) (Shape.Idx.first h_S_) + ∑ k : Fin 32000, (val_main_call0_v6 (F := Ideal) x0 x5) (idx_main_call0_v7 i k) := by
  unfold val_main_call0_v7
  generalize val_main_call0_v6 (F := Ideal) x0 x5 = y0
  simp only [Host.reduceAdd, Ideal.hostReduceAdd_def]
  rw [Ideal.hostReduceAdd_single reducesTo_S4x512x32000_S4x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

theorem val_main_v30_apply (i : S_.Idx) :
    val_main_v30 (F := Ideal) x0 x1 x2 x3 x4 x5 x6 i = (val_main_cst_3 (F := Ideal)) (Shape.Idx.first h_S_) + ∑ j : S4x512.Idx, (val_main_v29 (F := Ideal) x0 x1 x2 x3 x4 x5 x6) j := by
  unfold val_main_v30
  generalize val_main_v29 (F := Ideal) x0 x1 x2 x3 x4 x5 x6 = y0
  simp only [Host.reduceAdd, Ideal.hostReduceAdd_def]
  exact Ideal.hostReduceAdd_total reducesTo_S4x512_S_d0_1 (fun b => b.elim0) y0 _ i

theorem val_main_v31_apply (i : S_.Idx) :
    val_main_v31 (F := Ideal) x2 i = (val_main_cst_4 (F := Ideal)) (Shape.Idx.first h_S_) + ∑ j : S4x512.Idx, (val_main_v28 (F := Ideal) x2) j := by
  unfold val_main_v31
  generalize val_main_v28 (F := Ideal) x2 = y0
  simp only [Host.reduceAdd, Ideal.hostReduceAdd_def]
  exact Ideal.hostReduceAdd_total reducesTo_S4x512_S_d0_1 (fun b => b.elim0) y0 _ i

end

end Cert.ReferenceIdeal.ReadP

end
-- ==== Proof.RefValue.lean ====
import proofs.«423802_j62801011802684_3_alg».proof.Proof.RefReadP
import proofs.«423802_j62801011802684_3_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

-- The cast from the reals into the extended reals commutes with finite sums.
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- A maximum over a nonempty finite family is attained, so it is a real number when every member is.
theorem fold_max_real {ι : Type*} (s : Finset ι) (hs : s.Nonempty) (g : ι → EReal) (hg : ∀ i, ∃ r : ℝ, g i = (r : EReal)) :
    ∃ M : ℝ, s.fold max (⊥ : EReal) g = (M : EReal) := by
  obtain ⟨i, _, hi⟩ := Finset.exists_mem_eq_sup s hs g
  obtain ⟨r, hr⟩ := hg i
  exact ⟨r, hr ▸ hi⟩

-- Shifting a row by any real number M leaves its log-softmax unchanged.
theorem softmax_core {ι : Type*} [Fintype ι] [Nonempty ι] (y : ι → ℝ) (M : ℝ) (v : ι) :
    (((y v : ℝ) : EReal) - (M : EReal)) - Ideal.log (0 + ∑ k : ι, Ideal.exp (((y k : ℝ) : EReal) - (M : EReal)))
      = ((y v - Real.log (∑ k : ι, Real.exp (y k)) : ℝ) : EReal) := by
  have hpos : 0 < ∑ k : ι, Real.exp (y k - M) :=
    Finset.sum_pos (fun i _ => Real.exp_pos _) Finset.univ_nonempty
  have hsum : (∑ k : ι, Ideal.exp (((y k : ℝ) : EReal) - (M : EReal))) = ((∑ k : ι, Real.exp (y k - M) : ℝ) : EReal) := by
    rw [coe_sum]
    exact Finset.sum_congr rfl fun k _ => by rw [← EReal.coe_sub, Ideal.exp_coe]
  rw [zero_add, hsum, Ideal.log_coe, if_neg (not_le.mpr hpos), ← EReal.coe_sub, ← EReal.coe_sub]
  congr 1
  have := Cert.Spec.lse_shift (Finset.univ : Finset ι) Finset.univ_nonempty y M
  rw [← this]; ring

theorem neg_inf_word : Ideal.ofBits .f32 0xFF800000#32 = (⊥ : EReal) := by simp [Ideal.ofBits, Ideal.ieee]

instance vocab_nonempty : Nonempty (Fin 32000) := ⟨⟨0, by omega⟩⟩

-- A number below the vocabulary size, as a 32-bit word read signed, is itself.
theorem toInt_id (n : Nat) (hn : n < 32000) : (BitVec.ofNat 32 n).toInt = (n : Int) := by
  rw [BitVec.toInt_eq_toNat_of_lt (by rw [BitVec.toNat_ofNat]; omega), BitVec.toNat_ofNat]
  congr 1; omega

theorem slt_zero (n : Nat) (hn : n < 32000) : IntOp.cmpi .slt (BitVec.ofNat 32 n) 0#32 = 0#1 := by
  have h0 : ¬ ((n : Int) < 0) := by omega
  simp only [IntOp.cmpi, BitVec.slt, toInt_id n hn]
  simp [h0]
theorem sge_zero (n : Nat) (hn : n < 32000) : IntOp.cmpi .sge (BitVec.ofNat 32 n) 0#32 = 1#1 := by
  simp only [IntOp.cmpi, BitVec.sle, toInt_id n hn]
  simp
theorem sle_top (n : Nat) (hn : n < 32000) : IntOp.cmpi .sle (BitVec.ofNat 32 n) 31999#32 = 1#1 := by
  simp only [IntOp.cmpi, BitVec.sle, toInt_id n hn]
  have h1 : (31999#32 : BitVec 32).toInt = 31999 := by decide
  rw [h1]
  have h2 : (n : Int) ≤ 31999 := by omega
  simp [h2]

-- A conjunction of bits that are all one is one.
theorem fold_andi_ones {ι : Type*} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf a]; rfl

-- With a start index already inside the vocabulary, the gather reads the operand at that index along the collapsed axis.
theorem gather_read {α : Type} (x : S4x512x32000.Idx → α) (idx : IVec S4x512x1x1 32) (b : Fin 4) (t : Fin 512) (n : Fin 32000)
    (h : idx (ix4 b t 0 0) = BitVec.ofNat 32 n.val) :
    Host.gather gather_S4x512x32000_S4x512x1x1_S4x512x1_n_2_01_01_2_3_111 x idx (ix3 b t 0) = x (ix3 b t n) := by
  unfold Host.gather
  congr 1
  funext a
  refine Fin.ext ?_
  show gather_S4x512x32000_S4x512x1x1_S4x512x1_n_2_01_01_2_3_111.start (ix3 b t 0) idx a
      + gather_S4x512x32000_S4x512x1x1_S4x512x1_n_2_01_01_2_3_111.batchCoord (ix3 b t 0) a
      + gather_S4x512x32000_S4x512x1x1_S4x512x1_n_2_01_01_2_3_111.offCoord (ix3 b t 0) a = _
  match a with
  | ⟨0, _⟩ => exact Nat.zero_add _
  | ⟨1, _⟩ => exact Nat.zero_add _
  | ⟨2, _⟩ =>
    have hm : (⟨2, by decide⟩ : Fin 3) ∈ gather_S4x512x32000_S4x512x1x1_S4x512x1_n_2_01_01_2_3_111.startIndexMap :=
      List.mem_cons_self
    show gather_S4x512x32000_S4x512x1x1_S4x512x1_n_2_01_01_2_3_111.start (ix3 b t 0) idx ⟨2, _⟩ = _
    unfold GatherDims.start
    rw [dif_pos hm]
    have hsi : gather_S4x512x32000_S4x512x1x1_S4x512x1_n_2_01_01_2_3_111.siIdx (ix3 b t 0)
        ⟨List.idxOf (⟨2, by decide⟩ : Fin 3) gather_S4x512x32000_S4x512x1x1_S4x512x1_n_2_01_01_2_3_111.startIndexMap,
          List.idxOf_lt_length_iff.2 hm⟩ = ix4 b t 0 0 := by
      funext c; refine Fin.ext ?_
      match c with
      | ⟨0, _⟩ => rfl
      | ⟨1, _⟩ => rfl
      | ⟨2, _⟩ => rfl
      | ⟨3, _⟩ => rfl
    rw [hsi, h, toInt_id n.val n.isLt, Int.toNat_natCast]
    show min n.val (32000 - 1) = n.val
    have := n.isLt
    omega

section Table

variable (x0 : (⟨S4x512x1024, .f32⟩ : BufTy).Contents (Elt Ideal)) (x1 : (⟨S4x512, .i32⟩ : BufTy).Contents (Elt Ideal))
  (x5 : (⟨S32000x1024, .f32⟩ : BufTy).Contents (Elt Ideal))
  (xr : Fin 4 → Fin 512 → Fin 1024 → ℝ) (Wr : Fin 32000 → Fin 1024 → ℝ) (ids : Fin 4 → Fin 512 → Fin 32000)
  (hx : ∀ b t j, x0 (ix3 b t j) = ((xr b t j : ℝ) : EReal)) (hW : ∀ v j, x5 (ix2 v j) = ((Wr v j : ℝ) : EReal))
  (hids : ∀ b t, x1 (ix2 b t) = BitVec.ofNat 32 (ids b t).val)

-- Every logit is the real inner product of the hidden row with the vocabulary row.
include hx hW in
theorem logits_real (b : Fin 4) (t : Fin 512) (v : Fin 32000) :
    val_main_v0 (F := Ideal) x0 x5 (ix3 b t v) = ((Cert.Spec.logitR xr Wr b t v : ℝ) : EReal) := by
  rw [val_main_v0_apply]
  unfold Cert.Spec.logitR
  rw [coe_sum]
  refine Finset.sum_congr rfl fun k _ => ?_
  have hl : lidx_main_v0 (ix3 b t v) k = ix3 b t k := by
    funext a; match a with | ⟨0, _⟩ => rfl | ⟨1, _⟩ => rfl | ⟨2, _⟩ => rfl
  have hr : ridx_main_v0 (ix3 b t v) k = ix2 v k := by
    funext a; match a with | ⟨0, _⟩ => rfl | ⟨1, _⟩ => rfl
  rw [hl, hr, hx, hW, EReal.coe_mul]

-- The row maximum is a maximum of finitely many reals against minus infinity, hence some real number.
include hx hW in
theorem row_max_real (b : Fin 4) (t : Fin 512) :
    ∃ M : ℝ, val_main_call0_v0 (F := Ideal) x0 x5 (ix2 b t) = (M : EReal) := by
  have h : S4x512x32000.Reduces [2] S4x512 := by decide
  unfold val_main_call0_v0
  rw [Host.reduce_eq_fold_single FloatOps.maximumf _ _ reducesTo_S4x512x32000_S4x512_d2 h h_S_ (ix2 b t),
    val_main_call0_cst, constant_apply, neg_inf_word]
  refine fold_max_real Finset.univ ⟨⟨0, by decide⟩, Finset.mem_univ _⟩ _ (fun k => ?_)
  obtain ⟨b', t', v', hbtv⟩ : ∃ (b' : Fin 4) (t' : Fin 512) (v' : Fin 32000), h.lift (ix2 b t) k = ix3 b' t' v' :=
    ⟨_, _, _, eq_ix3 _⟩
  exact ⟨_, by rw [Function.comp_apply, hbtv]; exact logits_real x0 x5 xr Wr hx hW b' t' v'⟩

include hx hW in
theorem shifted (b : Fin 4) (t : Fin 512) (v : Fin 32000) (M : ℝ)
    (hM : val_main_call0_v0 (F := Ideal) x0 x5 (ix2 b t) = (M : EReal)) :
    val_main_call0_v5 (F := Ideal) x0 x5 (ix3 b t v) = ((Cert.Spec.logitR xr Wr b t v : ℝ) : EReal) - (M : EReal) := by
  have h3 : dropLast (unitLast (ix3 b t v)) = ix2 b t := by
    funext a; match a with | ⟨0, _⟩ => rfl | ⟨1, _⟩ => rfl
  rw [val_main_call0_v5, subf_apply, logits_real x0 x5 xr Wr hx hW, val_main_call0_v4, bcast_unitLast, val_main_call0_v3,
    bcast_dropLast, h3, val_main_call0_v2, maximumf_apply, val_main_call0_v1, bcast0_apply, val_main_call0_cst_0, constant_apply, hM,
    neg_inf_word, max_eq_right bot_le]

include hx hW in
theorem log_sum (b : Fin 4) (t : Fin 512) (M : ℝ)
    (hM : val_main_call0_v0 (F := Ideal) x0 x5 (ix2 b t) = (M : EReal)) :
    val_main_call0_v9 (F := Ideal) x0 x5 (ix3 b t 0)
      = Ideal.log (0 + ∑ k : Fin 32000, Ideal.exp (((Cert.Spec.logitR xr Wr b t k : ℝ) : EReal) - (M : EReal))) := by
  have h8 : dropLast (ix3 b t (0 : Fin 1)) = ix2 b t := by
    funext a; match a with | ⟨0, _⟩ => rfl | ⟨1, _⟩ => rfl
  rw [val_main_call0_v9, Host.log, val_main_call0_v8, bcast_dropLast, h8, val_main_call0_v7_apply, val_main_call0_cst_1, constant_apply,
    Ideal.ofBits_zero_f32, Ideal.hostUnary_log_def]
  refine congrArg Ideal.log (congrArg (fun s => 0 + s) ?_)
  refine Finset.sum_congr rfl fun k _ => ?_
  have h7 : idx_main_call0_v7 (ix2 b t) k = ix3 b t k := by
    funext a; match a with | ⟨0, _⟩ => rfl | ⟨1, _⟩ => rfl | ⟨2, _⟩ => rfl
  rw [h7, val_main_call0_v6, Host.exp, shifted x0 x5 xr Wr hx hW b t k M hM, Ideal.hostUnary_exp_def]

-- Every table entry is the logit minus the logarithm of the row's sum of exponentials.
include hx hW in
theorem log_softmax_real (b : Fin 4) (t : Fin 512) (v : Fin 32000) :
    val_main_v1 (F := Ideal) x0 x5 (ix3 b t v)
      = ((Cert.Spec.logitR xr Wr b t v - Real.log (∑ k : Fin 32000, Real.exp (Cert.Spec.logitR xr Wr b t k)) : ℝ) : EReal) := by
  obtain ⟨M, hM⟩ := row_max_real x0 x5 xr Wr hx hW b t
  have h10 : unitLast (ix3 b t v) = ix3 b t (0 : Fin 1) := by
    funext a; match a with | ⟨0, _⟩ => rfl | ⟨1, _⟩ => rfl | ⟨2, _⟩ => rfl
  rw [val_main_v1, subf_apply, val_main_call0_v10, bcast_unitLast, h10, shifted x0 x5 xr Wr hx hW b t v M hM,
    log_sum x0 x5 xr Wr hx hW b t M hM]
  exact softmax_core (fun k => Cert.Spec.logitR xr Wr b t k) M v

-- A token id is not negative, so the wrap-around of negative indices leaves it.
include hids in
theorem ids_word (b : Fin 4) (t : Fin 512) (c d : Fin 1) :
    val_main_call1_v5 (F := Ideal) x1 (ix4 b t c d) = BitVec.ofNat 32 (ids b t).val := by
  have hidx : dropLast (idx_main_call1_v5 (ix4 b t c d)) = ix2 b t := by
    funext a; refine Fin.ext ?_
    have h1 : t.val < 512 := t.isLt
    have h2 : c.val < 1 := c.isLt
    have h3 : d.val < 1 := d.isLt
    match a with
    | ⟨0, _⟩ => show (((b.val * 512 + t.val) * 1 + c.val) * 1 + d.val) / 512 = b.val; omega
    | ⟨1, _⟩ => show (((b.val * 512 + t.val) * 1 + c.val) * 1 + d.val) / 1 % 512 = t.val; omega
  rw [val_main_call1_v5_apply, val_main_call1_v4, select_apply, val_main_call1_v1, cmpi, val_main_v2, bcast_dropLast, hidx,
    hids, val_main_call1_v0, bcast0_apply, val_main_call1_c, constantI, slt_zero _ (ids b t).isLt, select_zero]

include hids in
theorem range_bit (i : S4x512x1x1.Idx) : val_main_call1_v11 (F := Ideal) x1 i = 1#1 := by
  obtain ⟨b, t, c, d, rfl⟩ : ∃ (b : Fin 4) (t : Fin 512) (c d : Fin 1), i = ix4 b t c d := ⟨_, _, _, _, eq_ix4 i⟩
  simp only [val_main_call1_v11, andi, val_main_call1_v7, val_main_call1_v10, cmpi, ids_word x1 ids hids,
    val_main_call1_v6, val_main_call1_c_2, val_main_call1_v9_apply, val_main_call1_v8_apply, val_main_call1_c_1, constantI,
    sle_top _ (ids b t).isLt]
  rw [bcast0_apply, constantI, sge_zero _ (ids b t).isLt]
  rfl

-- The range test holds at every position, so its conjunction along the index axis is one.
include hids in
theorem range_ok (j : S4x512x1.Idx) : val_main_call1_v12 (F := Ideal) x1 j = 1#1 := by
  unfold val_main_call1_v12
  rw [Host.reduce_eq_fold, val_main_call1_c_3, constantI]
  exact fold_andi_ones _ _ (range_bit x1 ids hids)

-- Each entry of the table is the selected token's log-probability.
include hx hW hids in
theorem lp_table (b : Fin 4) (t : Fin 512) :
    val_main_v4 (F := Ideal) x0 x1 x5 (ix2 b t) = ((Cert.Spec.lpR xr Wr ids b t : ℝ) : EReal) := by
  have h4 : idx_main_v4 (ix2 b t) = ix3 b t (0 : Fin 1) := by
    funext a; refine Fin.ext ?_
    have h1 : t.val < 512 := t.isLt
    match a with
    | ⟨0, _⟩ => show (b.val * 512 + t.val) / 512 = b.val; omega
    | ⟨1, _⟩ => show (b.val * 512 + t.val) / 1 % 512 = t.val; omega
    | ⟨2, _⟩ => rfl
  rw [val_main_v4_apply, h4, val_main_v3, select_apply, range_ok x1 ids hids, select_one]
  unfold val_main_call1_v13
  rw [gather_read _ _ b t (ids b t) (ids_word x1 ids hids b t 0 0), log_softmax_real x0 x5 xr Wr hx hW]
  rfl

end Table

-- From the two tables on, the program applies the specification's operations in the specification's order.
theorem ref_value
    (x0 x4 : (⟨S4x512x1024, .f32⟩ : BufTy).Contents (Elt Ideal)) (x1 x2 : (⟨S4x512, .i32⟩ : BufTy).Contents (Elt Ideal))
    (x3 : (⟨S4, .f32⟩ : BufTy).Contents (Elt Ideal)) (x5 x6 : (⟨S32000x1024, .f32⟩ : BufTy).Contents (Elt Ideal))
    (xr rxr : Fin 4 → Fin 512 → Fin 1024 → ℝ) (Wr rWr : Fin 32000 → Fin 1024 → ℝ) (ids : Fin 4 → Fin 512 → Fin 32000)
    (hx : ∀ b t j, x0 (ValueIdx.ix3 b t j) = ((xr b t j : ℝ) : EReal)) (hrx : ∀ b t j, x4 (ValueIdx.ix3 b t j) = ((rxr b t j : ℝ) : EReal))
    (hW : ∀ v j, x5 (ValueIdx.ix2 v j) = ((Wr v j : ℝ) : EReal)) (hrW : ∀ v j, x6 (ValueIdx.ix2 v j) = ((rWr v j : ℝ) : EReal))
    (hids : ∀ b t, x1 (ValueIdx.ix2 b t) = BitVec.ofNat 32 (ids b t).val) :
    Cert.ReferenceIdeal.ReadP.val_main_v33 (F := Ideal) x0 x1 x2 x3 x4 x5 x6 ValueIdx.ix0
      = Cert.Spec.lossE (fun b t => ((Cert.Spec.lpR xr Wr ids b t : ℝ) : EReal)) (fun b t => ((Cert.Spec.lpR rxr rWr ids b t : ℝ) : EReal))
          (fun b => x3 (ValueIdx.ix1 b)) (fun b t => FloatOps.sitofp (F := Ideal) .f32 (x2 (ValueIdx.ix2 b t))) := by
  have hlp : ∀ b t, val_main_v4 (F := Ideal) x0 x1 x5 (ix2 b t) = ((Cert.Spec.lpR xr Wr ids b t : ℝ) : EReal) :=
    lp_table x0 x1 x5 xr Wr ids hx hW hids

  have hrlp : ∀ b t, val_main_v9 (F := Ideal) x1 x4 x6 (ix2 b t) = ((Cert.Spec.lpR rxr rWr ids b t : ℝ) : EReal) :=
    lp_table x4 x1 x6 rxr rWr ids hrx hrW hids
  have h14 : ∀ (b : Fin 4) (t : Fin 512), idx_main_v12 (rowOf (ix2 b t)) = ix1 b := fun b t => by
    funext a; match a with | ⟨0, _⟩ => rfl
  have htok : ∀ (b : Fin 4) (t : Fin 512), val_main_v29 (F := Ideal) x0 x1 x2 x3 x4 x5 x6 (ix2 b t)
      = (-(min (Ideal.exp (((Cert.Spec.lpR xr Wr ids b t : ℝ) : EReal) - ((Cert.Spec.lpR xr Wr ids b t : ℝ) : EReal)) * x3 (ix1 b))
            (min (Ideal.ofBits .f32 0x3F99999A#32)
                (max (Ideal.ofBits .f32 0x3F4CCCCD#32)
                  (Ideal.exp (((Cert.Spec.lpR xr Wr ids b t : ℝ) : EReal) - ((Cert.Spec.lpR xr Wr ids b t : ℝ) : EReal)))) * x3 (ix1 b)))
          + Ideal.ofBits .f32 0x3DCCCCCD#32
            * ((Ideal.exp (((Cert.Spec.lpR rxr rWr ids b t : ℝ) : EReal) - ((Cert.Spec.lpR xr Wr ids b t : ℝ) : EReal))
                - (((Cert.Spec.lpR rxr rWr ids b t : ℝ) : EReal) - ((Cert.Spec.lpR xr Wr ids b t : ℝ) : EReal)))
              - Ideal.ofBits .f32 0x3F800000#32))
        * FloatOps.sitofp (F := Ideal) .f32 (x2 (ix2 b t)) := by
    intro b t
    simp only [val_main_v29, val_main_v28, val_main_v27, val_main_v26, val_main_v25, val_main_cst_2, val_main_v24, val_main_v23,
      val_main_cst_1, val_main_v22, val_main_v21, val_main_v20, val_main_v19, val_main_v18, val_main_v17, val_main_v16,
      val_main_v15, val_main_v14, val_main_v13, val_main_call4_v4, val_main_call4_v3, val_main_cst_0,
      val_main_call4_v2, val_main_call4_v1, val_main_call4_v0, val_main_cst, val_main_v11, val_main_v10, id, hlp, hrlp, mulf_apply, addf_apply, subf_apply, maximumf_apply,
      minimumf_apply, sitofp_apply, Host.exp, Host.negf, Ideal.hostUnary_exp_def, Ideal.hostNegf_def, Ideal.negf_def]
    rw [bcast_rowOf, val_main_v12_apply, h14, bcast0_apply, bcast0_apply, bcast0_apply, bcast0_apply]
    rfl
  rw [val_main_v33, Host.divf, val_main_v30_apply, val_main_v32, maximumf_apply, val_main_v31_apply, val_main_cst_3,
    val_main_cst_4, val_main_cst_5, sum_idx2, sum_idx2, Ideal.hostDivf_def]
  simp only [constant_apply, Ideal.ofBits_zero_f32, zero_add, htok, val_main_v28, sitofp_apply]
  rfl

end Cert.ReferenceIdeal.RefValue

end
-- ==== Proof.RefRunH.lean ====
import proofs.«423802_j62801011802684_3_alg».proof.Proof.RefRunP
import proofs.«423802_j62801011802684_3_alg».proof.Proof.RefReadP

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo
open Cert.ReferenceIdeal.ReadP

variable {F : FTy → Type} [FloatOps F]

variable (V W : Valuation τ sig (Elt F))

/-- Transporting a value along an equation between types and back returns the value. -/
theorem cast_cast_id {α β : Type} (h : α = β) (h' : β = α) (v : β) : cast h (cast h' v) = v := by subst h; rfl

/-- Folding over the first `m + n` operations is folding over the first `m`, then over the next `n`. -/
theorem after_take_add (m n : Nat) (l : List (HloOp τ sig (Elt F))) (b : DevRef τ sig) :
    after (l.take (m + n)) V b = after ((l.drop m).take n) (after (l.take m) V) b := by
  rw [List.take_add, StableHlo.after_append]

/-- The seven arguments. -/
abbrev mainArgs : List (Ref sig .tc) := [main_arg0, main_arg1, main_arg2, main_arg3, main_arg4, main_arg5, main_arg6]

/-- None of the first three stretches writes an argument. -/
theorem keepA (r : Ref sig .tc) (hr : r ∈ mainArgs) :
    after (ops.take 16) W r = W r ∧ after ((ops.drop 16).take 24) W r = W r ∧ after ((ops.drop 40).take 16) W r = W r := by
  fin_cases hr <;> refine ⟨?_, ?_, ?_⟩ <;> (dsimp only [ops, List.take, List.drop]; after_results_simp)

/-- Nor does the fourth, nor the first half of the fifth. -/
theorem keepB (r : Ref sig .tc) (hr : r ∈ mainArgs) :
    after ((ops.drop 56).take 24) W r = W r ∧ after ((ops.drop 80).take 18) W r = W r := by
  fin_cases hr <;> refine ⟨?_, ?_⟩ <;> (dsimp only [ops, List.take, List.drop]; after_results_simp)

/-- Nor the rest. -/
theorem keepC (r : Ref sig .tc) (hr : r ∈ mainArgs) : after (ops.drop 98) W r = W r := by
  fin_cases hr <;> (dsimp only [ops, List.drop]; after_results_simp)

/-- So every prefix ending at a cut, and the whole line, leaves an argument as it was. -/
theorem kept (r : Ref sig .tc) (hr : r ∈ mainArgs) :
    after (ops.take 16) V r = V r ∧ after (ops.take 40) V r = V r ∧ after (ops.take 56) V r = V r
      ∧ after (ops.take 80) V r = V r ∧ after ops V r = V r := by
  have a := fun W => keepA (F := F) W r hr
  have b := fun W => keepB (F := F) W r hr
  have h40 := (after_take_add V 16 24 ops r).trans ((a _).2.1.trans (a V).1)
  have h56 := (after_take_add V 40 16 ops r).trans ((a _).2.2.trans h40)
  have h80 := (after_take_add V 56 24 ops r).trans ((b _).1.trans h56)
  refine ⟨(a V).1, h40, h56, h80, ?_⟩
  rw [← List.take_append_drop 98 ops, StableHlo.after_append, keepC _ r hr]
  exact (after_take_add V 80 18 ops r).trans ((b _).2.trans h80)

/-- No operation from the forty-first to the eightieth writes `main_v4`. -/
theorem kept_v4 : after ((ops.drop 40).take 40) W main_v4 = W main_v4 := by
  dsimp only [ops, List.take, List.drop]; after_results_simp

/-- Operations 1 to 16 compute the first log-softmax table from the arguments they read. -/
theorem val1 : after (ops.take 16) W main_v1 = val_main_v1 (W main_arg0) (W main_arg5) := by
  dsimp only [ops, List.take]
  after_results_simp
  simp only [cast_cast_id]
  rfl

/-- Operations 17 to 40 read that table at the selected tokens. -/
theorem val2 {a0 a1 a5} (h : W main_v1 = val_main_v1 a0 a5) (h1 : W main_arg1 = a1) :
    after ((ops.drop 16).take 24) W main_v4 = val_main_v4 a0 a1 a5 := by
  subst h1
  dsimp only [ops, List.take, List.drop]
  after_results_simp
  simp only [cast_cast_id]
  rw [h]
  rfl

/-- Operations 41 to 56 compute the second log-softmax table. -/
theorem val3 {a4 a6} (h4 : W main_arg4 = a4) (h6 : W main_arg6 = a6) :
    after ((ops.drop 40).take 16) W main_v6 = val_main_v6 a4 a6 := by
  subst h4 h6
  dsimp only [ops, List.take, List.drop]
  after_results_simp
  simp only [cast_cast_id]
  rfl

/-- Operations 57 to 80 read the second table at the selected tokens. -/
theorem val4 {a1 a4 a6} (h : W main_v6 = val_main_v6 a4 a6) (h1 : W main_arg1 = a1) :
    after ((ops.drop 56).take 24) W main_v9 = val_main_v9 a1 a4 a6 := by
  subst h1
  dsimp only [ops, List.take, List.drop]
  after_results_simp
  simp only [cast_cast_id]
  rw [h]
  rfl

/-- The remaining operations compute the loss from the two per-position values. -/
theorem val5 {a0 a1 a2 a3 a4 a5 a6} (h4 : W main_v4 = val_main_v4 a0 a1 a5) (h9 : W main_v9 = val_main_v9 a1 a4 a6)
    (h2 : W main_arg2 = a2) (h3 : W main_arg3 = a3) :
    after (ops.drop 80) W main_v33 = val_main_v33 a0 a1 a2 a3 a4 a5 a6 := by
  subst h2 h3
  dsimp only [ops, List.drop]
  after_results_simp
  simp only [cast_cast_id]
  rw [h4, h9]
  rfl

/-- The five stretches in a row: the result buffer ends at the loss of the arguments' contents. -/
theorem after_ops_result : after ops V main_v33 = val_main_v33 (V main_arg0) (V main_arg1) (V main_arg2) (V main_arg3)
    (V main_arg4) (V main_arg5) (V main_arg6) := by
  have k := fun r hr => kept (F := F) V r hr
  have p2 := (after_take_add V 16 24 ops _).trans (val2 _ (val1 V) (k main_arg1 (by decide)).1)
  have p4 := (after_take_add V 56 24 ops _).trans (val4 _ ((after_take_add V 40 16 ops _).trans
    (val3 _ (k main_arg4 (by decide)).2.1 (k main_arg6 (by decide)).2.1)) (k main_arg1 (by decide)).2.2.1)
  rw [← List.take_append_drop 80 ops, StableHlo.after_append]
  exact val5 _ ((after_take_add V 40 40 ops _).trans ((kept_v4 _).trans p2)) p4 (k main_arg2 (by decide)).2.2.2.1
    (k main_arg3 (by decide)).2.2.2.1

/-- Every fair execution ends with the result buffer at the loss of the launch contents and the arguments as they began. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
          = Cert.ReferenceIdeal.ReadP.val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c _).trans (after_ops_result _), (h c _).trans (kept _ _ (by decide)).2.2.2.2,
      (h c _).trans (kept _ _ (by decide)).2.2.2.2, (h c _).trans (kept _ _ (by decide)).2.2.2.2,
      (h c _).trans (kept _ _ (by decide)).2.2.2.2, (h c _).trans (kept _ _ (by decide)).2.2.2.2,
      (h c _).trans (kept _ _ (by decide)).2.2.2.2, (h c _).trans (kept _ _ (by decide)).2.2.2.2⟩)
    (run_seq scopedRefs_eq scopedSems_eq defs main (fun _ => ops) main_eq (fun _ => ops_sub) m ρ)

end Cert.ReferenceIdeal.RunH

end
-- ==== Proof.PreReals.lean ====
import proofs.«423802_j62801011802684_3_alg».proof.Pre_finite_inputs
import proofs.«423802_j62801011802684_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreReals

open Idealize.ShloMosaic Idealize.ShloMosaic.ValueIdx
open Cert.Pre_finite_inputs

instance subsingleton_scalar_idx : Subsingleton S_.Idx := ⟨fun a b => funext fun d => d.elim0⟩

theorem inf_word : Ideal.ofBits .f32 0x7F800000#32 = (⊤ : EReal) := by
  simp [Ideal.ofBits, Ideal.ieee]

theorem real_of_abs_lt_top (x : EReal) (h : max x (-x) < ⊤) : ∃ r : ℝ, x = ((r : ℝ) : EReal) := by
  induction x using EReal.rec with
  | bot => exact absurd h (by simp)
  | coe r => exact ⟨r, rfl⟩
  | top => exact absurd h (by simp)

theorem real_of_test (x : Ideal .f32)
    (h : FloatOps.cmpf .olt (FloatOps.hostAbsf x) (FloatOps.ofBits (F := Ideal) .f32 0x7F800000#32) = 1#1) :
    ∃ r : ℝ, x = ((r : ℝ) : EReal) := by
  have h' : Ideal.cmp .olt (max (x : EReal) (-(x : EReal))) (Ideal.ofBits .f32 0x7F800000#32) = 1#1 := h
  rw [inf_word] at h'
  unfold Ideal.cmp at h'
  rw [StableHlo.Predicate.ofBool_eq_one_iff] at h'
  exact real_of_abs_lt_top x (of_decide_eq_true h')

theorem all_real {s : Shape} {axes : List (Fin s.rank)} (a : FVec Ideal s .f32) (hr : s.ReducesTo axes S_)
    (hb : S_.BroadcastsInDim s (![] : Fin 0 → Fin s.rank)) (hu : 0 < S_.numel) (init : IVec S_ 1)
    (e : Host.reduce IntOp.andi
          (cmpf .olt (Host.absf a) (broadcastInDim s ![] hb (constant (F := Ideal) S_ .f32 0x7F800000#32))) init hr hu ix0 = 1#1)
    (i : s.Idx) : ∃ r : ℝ, a i = ((r : ℝ) : EReal) :=
  real_of_test (a i) (Host.reduce_andi_all _ init hr hu ix0 e i)

theorem word_range (w : BitVec 32) (h0 : IntOp.cmpi .sge w 0#32 = 1#1) (h1 : IntOp.cmpi .slt w 32000#32 = 1#1) :
    w.toNat < 32000 := by
  unfold IntOp.cmpi at h0 h1
  rw [StableHlo.Predicate.ofBool_eq_one_iff] at h0 h1
  simp only [BitVec.sle, BitVec.slt, decide_eq_true_eq] at h0 h1
  have hz : (0#32 : BitVec 32).toInt = 0 := by decide
  have hv : (32000#32 : BitVec 32).toInt = 32000 := by decide
  rw [hz] at h0
  rw [hv] at h1
  have hlt := w.isLt
  rw [BitVec.toInt_eq_toNat_cond] at h0 h1
  split at h1 <;> omega

theorem reals_of_pre (a0 a4 : FVec Ideal S4x512x1024 .f32) (a1 a2 : IVec S4x512 32) (a3 : FVec Ideal S4 .f32)
    (a5 a6 : FVec Ideal S32000x1024 .f32)
    (h : Cert.Pre_finite_inputs.fn (F := Ideal) a0 a1 a2 a3 a4 a5 a6 = (fun _ => 1#1)) :
    (∃ xr : Fin 4 → Fin 512 → Fin 1024 → ℝ, ∀ b t j, a0 (ValueIdx.ix3 b t j) = ((xr b t j : ℝ) : EReal))
    ∧ (∃ ar : Fin 4 → ℝ, ∀ b, a3 (ValueIdx.ix1 b) = ((ar b : ℝ) : EReal))
    ∧ (∃ rxr : Fin 4 → Fin 512 → Fin 1024 → ℝ, ∀ b t j, a4 (ValueIdx.ix3 b t j) = ((rxr b t j : ℝ) : EReal))
    ∧ (∃ Wr : Fin 32000 → Fin 1024 → ℝ, ∀ v j, a5 (ValueIdx.ix2 v j) = ((Wr v j : ℝ) : EReal))
    ∧ (∃ rWr : Fin 32000 → Fin 1024 → ℝ, ∀ v j, a6 (ValueIdx.ix2 v j) = ((rWr v j : ℝ) : EReal))
    ∧ (∃ ids : Fin 4 → Fin 512 → Fin 32000, ∀ b t, a1 (ValueIdx.ix2 b t) = BitVec.ofNat 32 (ids b t).val) := by
  have e := congrFun h ix0
  dsimp only [fn, fn_part1] at e

  obtain ⟨e, eid⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  choose f0 hf0 using all_real a0 _ _ _ _ e0
  choose f3 hf3 using all_real a3 _ _ _ _ e3
  choose f4 hf4 using all_real a4 _ _ _ _ e4
  choose f5 hf5 using all_real a5 _ _ _ _ e5
  choose f6 hf6 using all_real a6 _ _ _ _ e6

  have hid : ∀ (b : Fin 4) (t : Fin 512), (a1 (ix2 b t)).toNat < 32000 := by
    intro b t
    have eb := Host.reduce_andi_all _ _ _ _ ix0 eid (ix2 b t)
    obtain ⟨eb0, eb1⟩ := IntOp.andi_eq_one.1 eb
    exact word_range (a1 (ix2 b t)) eb0 eb1
  refine ⟨⟨fun b t j => f0 (ix3 b t j), fun b t j => hf0 _⟩, ⟨fun b => f3 (ix1 b), fun b => hf3 _⟩,
    ⟨fun b t j => f4 (ix3 b t j), fun b t j => hf4 _⟩, ⟨fun v j => f5 (ix2 v j), fun v j => hf5 _⟩,
    ⟨fun v j => f6 (ix2 v j), fun v j => hf6 _⟩, ⟨fun b t => ⟨(a1 (ix2 b t)).toNat, hid b t⟩, fun b t => ((BitVec.ofNat_toNat 32 _).trans (BitVec.setWidth_eq _)).symm⟩⟩

end Cert.PreReals

end
-- ==== Proof.lean ====
import proofs.«423802_j62801011802684_3_alg».proof.Defs
import proofs.«423802_j62801011802684_3_alg».proof.Proof.Gen.Kernel
import proofs.«423802_j62801011802684_3_alg».proof.Proof.Gen.KernelIdeal
import proofs.«423802_j62801011802684_3_alg».proof.Proof.Gen.ReferenceIdeal
import proofs.«423802_j62801011802684_3_alg».proof.Proof.Gen.Pre_finite_inputs
import proofs.«423802_j62801011802684_3_alg».proof.Proof.K.Frame
import proofs.«423802_j62801011802684_3_alg».proof.Proof.KI.KValue
import proofs.«423802_j62801011802684_3_alg».proof.Proof.RefValue
import proofs.«423802_j62801011802684_3_alg».proof.Proof.RefRunH
import proofs.«423802_j62801011802684_3_alg».proof.Proof.PreReals

noncomputable section

namespace Cert.Proof

open Idealize.ShloMosaic Idealize.SL.Sem Idealize.ShloMosaic.ValueIdx

-- The kernel's frame: the run of its three calls, read at the arguments.
theorem frame_k : Cert.frame_Kernel (hKernel := Cert.Kernel.Gen.facts) (hPre_finite_inputs := Cert.Pre_finite_inputs.Gen.facts) :=
  fun m ρ _ => Cert.Kernel.Hand.frame m ρ

-- The idealized kernel's frame: the same run, stated for the idealized program.
theorem frame_ki : Cert.frame_KernelIdeal (hKernelIdeal := Cert.KernelIdeal.Gen.facts) (hPre_finite_inputs := Cert.Pre_finite_inputs.Gen.facts) :=
  fun m ρ _ => Cert.KernelIdeal.Hand.frame m ρ

-- The reference's frame: its run with the result dropped.
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run_val (F := Ideal) m ρ)

-- Both programs end at the specification's loss of the two models' log-probability tables; the precondition gives real inputs and in-range ids.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W9 m g c (Proc.devRef .tc Cert.KernelIdeal.main_v12), ?_, ?_⟩
  · exact (θ_run Cert.KernelIdeal.defs _ _).mono (fun _ h c =>
      ⟨h c _ (Cert.KernelIdeal.Hand.mem_uc Cert.KernelIdeal.main_v12 (by decide)),
       (h c _ (Cert.KernelIdeal.Hand.mem_uc Cert.KernelIdeal.main_arg0 (by decide))).trans (Cert.KernelIdeal.Hand.W9_main_arg0 m g c),
       (h c _ (Cert.KernelIdeal.Hand.mem_uc Cert.KernelIdeal.main_arg1 (by decide))).trans (Cert.KernelIdeal.Hand.W9_main_arg1 m g c),
       (h c _ (Cert.KernelIdeal.Hand.mem_uc Cert.KernelIdeal.main_arg2 (by decide))).trans (Cert.KernelIdeal.Hand.W9_main_arg2 m g c),
       (h c _ (Cert.KernelIdeal.Hand.mem_uc Cert.KernelIdeal.main_arg3 (by decide))).trans (Cert.KernelIdeal.Hand.W9_main_arg3 m g c),
       (h c _ (Cert.KernelIdeal.Hand.mem_uc Cert.KernelIdeal.main_arg4 (by decide))).trans (Cert.KernelIdeal.Hand.W9_main_arg4 m g c),
       (h c _ (Cert.KernelIdeal.Hand.mem_uc Cert.KernelIdeal.main_arg5 (by decide))).trans (Cert.KernelIdeal.Hand.W9_main_arg5 m g c),
       (h c _ (Cert.KernelIdeal.Hand.mem_uc Cert.KernelIdeal.main_arg6 (by decide))).trans (Cert.KernelIdeal.Hand.W9_main_arg6 m g c)⟩)
      (Cert.KernelIdeal.Hand.run_all m g)
  · refine (θ_run Cert.ReferenceIdeal.defs _ _).mono (fun _ h c => ⟨(h c).1.trans ?_, (h c).2⟩)
      (Cert.ReferenceIdeal.RunH.run_val (F := Ideal) m' g')
    obtain ⟨⟨xr, hx⟩, -, ⟨rxr, hrx⟩, ⟨Wr, hW⟩, ⟨rWr, hrW⟩, ⟨ids, hids⟩⟩ := Cert.PreReals.reals_of_pre _ _ _ _ _ _ _ (hpre c)
    obtain ⟨e0, e1, e2, e3, e4, e5, e6⟩ := hagree c
    rw [e0, e1, e2, e3, e4, e5, e6]
    funext i
    rw [eq_ix0 i, Cert.ReferenceIdeal.RefValue.ref_value _ _ _ _ _ _ _ xr rxr Wr rWr ids hx hrx hW hrW hids]
    exact (Cert.KernelIdeal.Hand.kernel_value m g c xr rxr Wr rWr ids hx hrx hW hrW hids).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
